-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_v49 : IVec S_ 1) (main_v51 : IVec S600000 32) : IVec S_ 1 :=
  let main_c_18 : IVec S_ 32 := constantI S_ 32 50000#32
  let main_v52 : IVec S600000 32 := broadcastInDim S600000 ![] bcast_S_S600000 main_c_18
  let main_v53 : IVec S600000 1 := cmpi .slt main_v51 main_v52
  let main_c_19 : IVec S_ 1 := constantI S_ 1 1#1
  let main_v54 : IVec S_ 1 := (fun x v => Host.reduce IntOp.andi x v reducesTo_S600000_S_d0 h_S_) main_v53 main_c_19
  let main_v55 : IVec S_ 1 := andi main_v49 main_v54
  main_v55

def fn_part2 {F : FTy → Type} [FloatOps F] (main_arg1 : IVec S2x600000 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x600000 32 := (extractStridedSlice S1x600000 ![1, 0] · slices_S2x600000_S1x600000_1_0) main_arg1
  let main_v45 : IVec S600000 32 := shapeCast S600000 main_v44 shapeCasts_S1x600000_S600000
  let main_c_16 : IVec S_ 32 := constantI S_ 32 0#32
  let main_v46 : IVec S600000 32 := broadcastInDim S600000 ![] bcast_S_S600000 main_c_16
  let main_v47 : IVec S600000 1 := cmpi .sge main_v45 main_v46
  let main_c_17 : IVec S_ 1 := constantI S_ 1 1#1
  let main_v48 : IVec S_ 1 := (fun x v => Host.reduce IntOp.andi x v reducesTo_S600000_S_d0 h_S_) main_v47 main_c_17
  let main_v49 : IVec S_ 1 := andi main_v43 main_v48
  let main_v50 : IVec S1x600000 32 := (extractStridedSlice S1x600000 ![1, 0] · slices_S2x600000_S1x600000_1_0) main_arg1
  let main_v51 : IVec S600000 32 := shapeCast S600000 main_v50 shapeCasts_S1x600000_S600000
  fn_part3 (F := F) main_v49 main_v51

def fn_part1 {F : FTy → Type} [FloatOps F] (main_arg1 : IVec S2x600000 32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600064 : Shape := ⟨1, ![600064]⟩
abbrev S1x600064 : Shape := ⟨2, ![1, 600064]⟩
abbrev S50176x128 : Shape := ⟨2, ![50176, 128]⟩
abbrev S600064x128 : Shape := ⟨2, ![600064, 128]⟩
abbrev S1x1024 : Shape := ⟨2, ![1, 1024]⟩
abbrev S1024x128 : Shape := ⟨2, ![1024, 128]⟩
abbrev S1024x1024 : Shape := ⟨2, ![1024, 1024]⟩
abbrev S1x128 : Shape := ⟨2, ![1, 128]⟩

abbrev nBuf : Space → Nat
  | .hbm => 28
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S_, .i32⟩
  | .hbm, ⟨16, _⟩ => ⟨S600064, .i32⟩
  | .hbm, ⟨17, _⟩ => ⟨S1x600064, .i32⟩
  | .hbm, ⟨18, _⟩ => ⟨S_, .i32⟩
  | .hbm, ⟨19, _⟩ => ⟨S_, .i32⟩
  | .hbm, ⟨20, _⟩ => ⟨S600064, .i32⟩
  | .hbm, ⟨21, _⟩ => ⟨S1x600064, .i32⟩
  | .hbm, ⟨22, _⟩ => ⟨S_, .i32⟩
  | .hbm, ⟨23, _⟩ => ⟨S_, .f32⟩
  | .hbm, ⟨24, _⟩ => ⟨S50176x128, .f32⟩
  | .hbm, ⟨25, _⟩ => ⟨S600064x128, .bf16⟩
  | .hbm, ⟨26, _⟩ => ⟨S50176x128, .f32⟩
  | .hbm, ⟨27, _⟩ => ⟨S50000x128, .f32⟩
  | .local _ .vmem, ⟨0, _⟩ => ⟨S1x1024, .i32⟩
  | .local _ .vmem, ⟨1, _⟩ => ⟨S1x1024, .i32⟩
  | .local _ .vmem, ⟨2, _⟩ => ⟨S1x1024, .i32⟩
  | .local _ .vmem, ⟨3, _⟩ => ⟨S1x1024, .i32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1x1024, .i32⟩
  | .local _ .vmem, ⟨15, _⟩ => ⟨S1x1024, .i32⟩
  | .local _ .vmem, ⟨16, _⟩ => ⟨S1024x128, .bf16⟩
  | .local _ .vmem, ⟨17, _⟩ => ⟨S1024x128, .bf16⟩
  | .local _ .vmem, ⟨18, _⟩ => ⟨S1024x128, .f32⟩
  | .local _ .vmem, ⟨19, _⟩ => ⟨S1024x128, .f32⟩
  | .local _ .vmem, ⟨20, _⟩ => ⟨S256x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![586, 49], ![false, false]⟩

def k0_cond2 (i : grid0.Coords) : BitVec 1 :=
  let arg1 : BitVec 32 := BitVec.ofNat 32 (i 1).val
  let c48_i32 : BitVec 32 := 48#32
  let v38 : BitVec 1 := Scalar.cmpi .eq arg1 c48_i32
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![49, 586], ![false, false]⟩

def k1_cond2 (i : grid1.Coords) : BitVec 1 :=
  let arg1 : BitVec 32 := BitVec.ofNat 32 (i 1).val
  let c585_i32 : BitVec 32 := 585#32
  let v23 : BitVec 1 := Scalar.cmpi .eq arg1 c585_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S600064_0640 : S600000.Pads (![0] : Fin 1 → Nat) ![64] ![0] S600064
  h_S_ : 0 < S_.numel
  shapeCasts_S600064_S1x600064 : S600064.ShapeCasts S1x600064
  pads_S50000x128_S50176x128_01760_000 : S50000x128.Pads (![0, 0] : Fin 2 → Nat) ![176, 0] ![0, 0] S50176x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d0_w32 : S1024x1024.Iotas .tc 32 [0]
  broadcasts_S1x1024_S1024x1024 : S1x1024.Broadcasts S1024x1024
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  packedbf16_S1024x128_S1024x128_0_0 : (Rect.unit (s := S1024x128) ![0, 0] S1024x128.size inb_S1024x128_S1024x128_0_0).PackedRows (EltTy.packing .bf16)
  inb_S256x128_S128x128_0_0 : ∀ a, (![0, 0] : Fin 2 → Nat) a + S128x128.size a ≤ S256x128.size a
  inb_S256x128_S128x128_128_0 : ∀ a, (![128, 0] : Fin 2 → Nat) a + S128x128.size a ≤ S256x128.size a
  slices_S50176x128_S50000x128_0_0 : S50176x128.Slices ![0, 0] S50000x128
  dot_S1024x1024_S1024x128_S1024x128_0_0_1_1_n_n_wf : DotDims.WF S1024x1024 S1024x128 S1024x128 [0] [0] [1] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x600064.size a
  hwx0_0 : ∀ i : grid0.Coords, EltTy.bits .i32 = 32 ∨ (Rect.block (s := S1x600064) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x600064.size a
  hwx0_1 : ∀ i : grid0.Coords, EltTy.bits .i32 = 32 ∨ (Rect.block (s := S1x600064) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .f32 = 32 ∨ (Rect.block (s := S50176x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S600064x128.size a
  hwx0_7 : ∀ i : grid0.Coords, EltTy.bits .bf16 = 32 ∨ (Rect.block (s := S600064x128) S1024x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x600064.size a
  hwx1_0 : ∀ i : grid1.Coords, EltTy.bits .i32 = 32 ∨ (Rect.block (s := S1x600064) S1x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S600064x128.size a
  hwx1_1 : ∀ i : grid1.Coords, EltTy.bits .bf16 = 32 ∨ (Rect.block (s := S600064x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .f32 = 32 ∨ (Rect.block (s := S50176x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S50176x128.size a
  hwx1_7 : ∀ i : grid1.Coords, EltTy.bits .f32 = 32 ∨ (Rect.block (s := S50176x128) S1024x128.size (cc1_transform_7 i) (hinb1_7 i)).WholeWords (EltTy.packing .f32)

variable [Facts₀]

def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v5) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v5) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x256 : Shape := ⟨2, ![50000, 256]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S600000x128, .f32⟩
  | .hbm, ⟨33, _⟩ => ⟨S600000x128, .f32⟩
  | .hbm, ⟨34, _⟩ => ⟨S1x128, .f32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S1x128, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KB_Host.lean ====
import proofs.«410833_j1056561954999_1_alg».proof.Proof.Gen.Kernel.Regions
import Idealize.ShloMosaic.Lib.Pipeline.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)

abbrev V6 : (c : Dev nD) → (b : Ref sig .tc) → Buf (Elt F) ((c : Thread nD τ).loc b) := fun c b => W6 m c b

abbrev args : List (Ref sig .tc) :=
  [main_arg0, main_arg1, main_arg2, main_arg3, main_arg4, main_arg5, main_arg6, main_arg7, main_arg8, main_arg9]

-- No host line before the calls writes an argument array: none is among the references a stretch writes.
theorem W6_arg (c : Dev nD) {r : Ref sig .tc} (hr : r ∈ args) :
    W6 m c (Proc.devRef .tc r) = m ((c : Thread nD τ).loc r) := by
  obtain ⟨h0, h1, h2, h3, h4, h5⟩ := (by decide : ∀ r ∈ args, r ∉ hostOps0_W ∧ r ∉ hostOps0_1_W ∧ r ∉ hostOps0_2_W
    ∧ r ∉ hostOps0_3_W ∧ r ∉ hostOps0_4_W ∧ r ∉ hostOps0_5_W) r hr
  exact (V6_of m c r h5).trans <| (V5_of m c r h4).trans <| (V4_of m c r h3).trans <| (V3_of m c r h2).trans <|
    (V2_of m c r h1).trans (V1_of m c r h0)

end Cert.Kernel.Whole

end
-- ==== Proof.LibOwns.lean ====
import Idealize.ShloMosaic.Lib.Pipeline.Frame

noncomputable section

namespace Idealize.ShloMosaic

open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A whole memref is owned at contents `X` exactly when its buffer holds the one raw contents that reads `X`. -/
theorem owns_eq_unread (c : Thread nD τ) {sp : Space} {sh : Shape} {e : EltTy} {m : Memref sig c.2.kind sp sh e}
    (h : m.IsWhole) (q : PosShare TreeShare) (X : sh.Idx → Val e) :
    (owns c m q X : sProp 𝕄) = (m.view.loc c ↦[m.view.set]{q} h.unread X) := by
  have h₁ : (owns c m q X : sProp 𝕄) ⊢ (m.view.loc c ↦[m.view.set]{q} h.unread X) := by
    unfold owns; iintro ⟨%f, %hf, H⟩; obtain rfl := h.eq_unread hf; iexact H
  have h₂ : (m.view.loc c ↦[m.view.set]{q} h.unread X : sProp 𝕄) ⊢ owns c m q X :=
    (owns_intro c m q _).trans (by rw [h.read_unread])
  exact BI.equiv_iff.mp ⟨h₁, h₂⟩

/-- What a run of stores that covers a memref leaves is owned at the stored pieces read back, whatever was there before. -/
theorem owns_of_writes (c : Thread nD τ) {sp : Space} {sh : Shape} {e : EltTy} (m : Memref sig c.2.kind sp sh e)
    (q : PosShare TreeShare) (L : List (View.Piece Val sh e)) (hL : ∀ y, ∃ pc ∈ L, y ∈ pc.1.set) (f : m.view.ty.Contents Val)
    {sig' : RefSig} {κ' : Kind} {sp' : Space} (v' : View sig' κ' sp' sh e) (f' : v'.ty.Contents Val) :
    (m.view.loc c ↦[m.view.set]{q} m.view.writes Val f L : sProp 𝕄) ⊢ owns c m q (v'.read Val (v'.writes Val f' L)) := by
  unfold owns; iintro H; iexists m.view.writes Val f L; isplitr
  · ipureintro; exact View.read_writes_of_cover _ _ _ _ _ hL
  · iexact H

end Idealize.ShloMosaic

end
-- ==== Proof.KB_EdgeShared.lean ====
import proofs.«410833_j1056561954999_1_alg».proof.Proof.Gen.Kernel.Launch
import proofs.«410833_j1056561954999_1_alg».proof.Proof.Gen.Kernel.Skeleton
import proofs.«410833_j1056561954999_1_alg».proof.Proof.LibOwns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem coord_inner (t : Fin grid0.N) : (grid0.coords t 1).val = t.val % 49 := by
  show t.val / grid0.stride 1 % grid0.bound 1 = t.val % 49
  rw [show grid0.stride 1 = 1 from by decide, show grid0.bound 1 = 49 from rfl, Nat.div_one]

theorem coord_outer (t : Fin grid0.N) : (grid0.coords t 0).val = t.val / 49 := by
  have h : t.val < 28714 := lt_of_lt_of_eq t.isLt N_0
  show t.val / grid0.stride 0 % grid0.bound 0 = t.val / 49
  rw [show grid0.stride 0 = 49 from by decide, show grid0.bound 0 = 586 from rfl]
  exact Nat.mod_eq_of_lt (by omega)

abbrev condFirst (i : grid0.Coords) : Prop := (Scalar.cmpi .ne (Scalar.extui (Scalar.cmpi .eq (BitVec.ofNat 32 (i 1).val) 0#32)) 0#32) = 1#1
theorem condFirst_iff (i : grid0.Coords) : condFirst i ↔ (i 1).val = 0 :=
  (by decide +kernel : ∀ k : Fin 49, (Scalar.cmpi .ne (Scalar.extui (Scalar.cmpi .eq (BitVec.ofNat 32 k.val) 0#32)) 0#32) = 1#1 ↔ k.val = 0) (i 1)
theorem hcondFirst (t : Fin cfg0.N) : condFirst (grid0.coords t) ↔ t.val % 49 = 0 := by
  rw [condFirst_iff, coord_inner]

abbrev condLast (i : grid0.Coords) : Prop := k0_cond2 i = 1#1
theorem condLast_iff (i : grid0.Coords) : condLast i ↔ (i 1).val = 48 :=
  (by decide +kernel : ∀ k : Fin 49, (Scalar.cmpi .ne (Scalar.extui (Scalar.cmpi .eq (BitVec.ofNat 32 k.val) 48#32)) 0#32) = 1#1 ↔ k.val = 48) (i 1)
theorem hcondLast (t : Fin cfg0.N) : condLast (grid0.coords t) ↔ t.val % 49 = 48 := by
  rw [condLast_iff, coord_inner]

theorem index_7 (t : Fin grid0.N) : win0_7.index t = ![t.val / 49, 0] := by
  have h : t.val < 28714 := lt_of_lt_of_eq t.isLt N_0
  funext a
  match a with
  | ⟨0, _⟩ =>
    show (BitVec.ofNat 32 (grid0.coords t 0).val).toNat = t.val / 49
    rw [coord_outer, BitVec.toNat_ofNat]
    exact Nat.mod_eq_of_lt (by omega)
  | ⟨1, _⟩ => rfl

theorem flush_7_iff (t : Fin cfg0.N) : (cfg0.win 7).flush t = true ↔ t.val % 49 = 48 := by
  have hN : t.val < 28714 := lt_of_lt_of_eq t.isLt (show cfg0.N = 28714 from N_0)
  have hG : grid0.N = 28714 := N_0
  show Pipeline.Window.flush win0_7 t = true ↔ _
  unfold Pipeline.Window.flush
  rw [show win0_7.isOut = true from rfl, Bool.true_and, Bool.or_eq_true, decide_eq_true_eq, decide_eq_true_eq]
  constructor
  · rintro (h | ⟨h, hne⟩)
    · omega
    · have hd : (t.val + 1) / 49 ≠ t.val / 49 := fun e => hne (by rw [index_7, index_7]; show ![(t.val + 1) / 49, 0] = _; rw [e])
      omega
  · intro hL
    by_cases h : t.val + 1 = grid0.N
    · exact Or.inl h
    · refine Or.inr ⟨by omega, fun e => ?_⟩
      rw [index_7, index_7] at e
      have e1 : (t.val + 1) / 49 = t.val / 49 := congrFun e 0
      omega

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl

theorem idle_7 : ∀ t : Fin cfg0.N, ¬condLast (grid0.coords t) → cfg0.idle 7 (grid0.coords t) = true := by
  intro t h
  show (!(k0_cond2 (grid0.coords t) == 1#1)) = true
  simp only [Bool.not_eq_true', beq_eq_false_iff_ne, ne_eq]
  exact h
theorem noFlush_7 : ∀ t : Fin cfg0.N, ¬condLast (grid0.coords t) → (cfg0.win 7).flush t = false :=
  fun t h => Bool.eq_false_iff.mpr fun hf => h ((hcondLast t).mpr ((flush_7_iff t).mp hf))

theorem live_7 : ∀ t : Fin cfg0.N, condLast (grid0.coords t) → cfg0.idle 7 (grid0.coords t) = false := by
  intro t h
  show (!(k0_cond2 (grid0.coords t) == 1#1)) = false
  simp only [Bool.not_eq_false', beq_iff_eq]
  exact h

abbrev VO : View sig .tc .vmem S1024x128 .bf16 := (Memref.whole cc0_stg7_0 : Memref sig .tc .vmem S1024x128 .bf16).view
abbrev ms_0 (t : Fin cfg0.N) : Memref sig .tc .vmem S1x1024 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1024 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1024x128 .bf16 := win0_7.stage (cfg0.slots t 7)
abbrev hs_7 (t : Fin cfg0.N) : (ms_7 t).IsWhole := hstage0_7 ((cfg0.slots t 7).cast nbuf0_7)

abbrev scM_0 : Memref sig .tc .vmem S1024x128 .f32 := Memref.whole cc0_scratch0
abbrev VS_0 : View sig .tc .vmem S1024x128 .f32 := scM_0.view

abbrev scM_1 : Memref sig .tc .vmem S1024x128 .f32 := Memref.whole cc0_scratch1
abbrev VS_1 : View sig .tc .vmem S1024x128 .f32 := scM_1.view

-- What one call of the body takes: every window's memref and the accumulators', each whole.
set_option genInjectivity false in
set_option genSizeOfSpec false in
structure Call where
  arg2 : Memref sig .tc .vmem S1x1024 .i32
  harg2 : arg2.IsWhole
  arg3 : Memref sig .tc .vmem S1x1024 .i32
  harg3 : arg3.IsWhole
  arg4 : Memref sig .tc .vmem S1024x128 .f32
  harg4 : arg4.IsWhole
  arg5 : Memref sig .tc .vmem S128x128 .f32
  harg5 : arg5.IsWhole
  arg6 : Memref sig .tc .vmem S128 .f32
  harg6 : arg6.IsWhole
  arg7 : Memref sig .tc .vmem S128x128 .f32
  harg7 : arg7.IsWhole
  arg8 : Memref sig .tc .vmem S128 .f32
  harg8 : arg8.IsWhole
  arg9 : Memref sig .tc .vmem S1024x128 .bf16
  harg9 : arg9.IsWhole
  arg10 : Memref sig .tc .vmem S1024x128 .f32
  harg10 : arg10.IsWhole
  arg11 : Memref sig .tc .vmem S1024x128 .f32
  harg11 : arg11.IsWhole

-- The input blocks one call of the body loads.
set_option genInjectivity false in
set_option genSizeOfSpec false in
structure Blocks (F : FTy → Type) where
  x0 : Vec F S1x1024 .i32
  x1 : Vec F S1x1024 .i32
  x2 : Vec F S1024x128 .f32
  x3 : Vec F S128x128 .f32
  x4 : Vec F S128 .f32
  x5 : Vec F S128x128 .f32
  x6 : Vec F S128 .f32

abbrev callAt (t : Fin cfg0.N) : Call :=
  ⟨ms_0 t, hs_0 t, ms_1 t, hs_1 t, ms_2 t, hs_2 t, ms_3 t, hs_3 t, ms_4 t, hs_4 t, ms_5 t, hs_5 t, ms_6 t, hs_6 t, ms_7 t, hs_7 t, scM_0, Memref.isWhole_whole _, scM_1, Memref.isWhole_whole _⟩

abbrev blocksAt (c : Dev nD) (t : Fin cfg0.N) : Blocks F :=
  ⟨iblk V c 0 t, iblk V c 1 t, iblk V c 2 t, iblk V c 3 t, iblk V c 4 t, iblk V c 5 t, iblk V c 6 t⟩

abbrev bodyAt (t : Fin cfg0.N) : Prog (TpuEff nD τ sig (Elt F) Λ₀ .tc) PUnit :=
  cc0__edge_kernel_body (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _)

def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_scratch0), ((c : Thread nD τ).loc cc1_scratch0) ↦{fullShare} f))

theorem PhiA_open (c : Dev nD) : (Pipeline.ΦA spec0 c : sProp 𝕄)
    ⊢ iprop(iprop((∃ d, owns (c : Thread nD τ) scM_0 fullShare d) ∗ (∃ d, owns (c : Thread nD τ) scM_1 fullShare d) ∗ others c) ∗ (∃ r, prngReg c r)) := by
  unfold Pipeline.ΦA others; rw [scopedRest0_eq]; simp only [scM_0, scM_1, owns_whole]
  exact .rfl

theorem PhiA_close (c : Dev nD) : iprop(iprop((∃ d, owns (c : Thread nD τ) scM_0 fullShare d) ∗ (∃ d, owns (c : Thread nD τ) scM_1 fullShare d) ∗ others c) ∗ (∃ r, prngReg c r))
    ⊢ (Pipeline.ΦA spec0 c : sProp 𝕄) := by
  unfold Pipeline.ΦA others; rw [scopedRest0_eq]; simp only [scM_0, scM_1, owns_whole]
  exact .rfl

end Cert.Kernel.Edge

end
-- ==== Proof.KB_EdgeRunFirst.lean ====
import proofs.«410833_j1056561954999_1_alg».proof.Proof.KB_EdgeShared

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (a : Call) (hc0 : condFirst i) (hc1 : ¬condLast i)
    (x : Blocks F) :
    Σ' (L7 : List (View.Piece (Elt F) S1024x128 .bf16)), Σ' (LS0 : List (View.Piece (Elt F) S1024x128 .f32)), { LS1 : List (View.Piece (Elt F) S1024x128 .f32) //
      ∀ (xi7 : Vec F S1024x128 .bf16) (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ d, owns (c : Thread nD τ) a.arg10 fullShare d) ∗ (∃ d, owns (c : Thread nD τ) a.arg11 fullShare d)
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ f, a.arg10.view.loc (c : Thread nD τ) ↦[a.arg10.view.set]{fullShare} a.arg10.view.writes (Elt F) f LS0) ∗ (∃ f, a.arg11.view.loc (c : Thread nD τ) ↦[a.arg11.view.set]{fullShare} a.arg11.view.writes (Elt F) f LS1)) -∗ K ⟨⟩))
          ⊢ wp frame (wpE (defs₀ (F := F)) Variants.none c none) E (cc0__edge_kernel_body i a.arg2 a.harg2 a.arg3 a.harg3 a.arg4 a.harg4 a.arg5 a.harg5 a.arg6 a.harg6 a.arg7 a.harg7 a.arg8 a.harg8 a.arg9 a.harg9 a.arg10 a.harg10 a.arg11 a.harg11) K } := by
  refine ⟨[], ?_, ?_, fun xi7 E K => ?run⟩
  case run =>
    simp only [cc0__edge_kernel_body_eq_skeleton]; unfold cc0__edge_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg9]
    unfold owns
    iintro ⟨H0, H1, H2, H3, H4, H5, H6, H7, ⟨%ds0, %fs0, -, HS0⟩, ⟨%ds1, %fs1, -, HS1⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    iexists _; iexact HS1

end Cert.Kernel.Edge

end
-- ==== Proof.KB_EdgeRunMid.lean ====
import proofs.«410833_j1056561954999_1_alg».proof.Proof.KB_EdgeRunFirst

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (a : Call) (hc0 : ¬condFirst i) (hc1 : ¬condLast i)
    (x : Blocks F) (xs0 : Vec F S1024x128 .f32) (xs1 : Vec F S1024x128 .f32) :
    Σ' (L7 : List (View.Piece (Elt F) S1024x128 .bf16)), Σ' (LS0 : List (View.Piece (Elt F) S1024x128 .f32)), { LS1 : List (View.Piece (Elt F) S1024x128 .f32) //
      ∀ (xi7 : Vec F S1024x128 .bf16) (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ owns (c : Thread nD τ) a.arg10 fullShare xs0 ∗ owns (c : Thread nD τ) a.arg11 fullShare xs1
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ f, a.arg10.view.loc (c : Thread nD τ) ↦[a.arg10.view.set]{fullShare} a.arg10.view.writes (Elt F) f LS0) ∗ (∃ f, a.arg11.view.loc (c : Thread nD τ) ↦[a.arg11.view.set]{fullShare} a.arg11.view.writes (Elt F) f LS1)) -∗ K ⟨⟩))
          ⊢ wp frame (wpE (defs₀ (F := F)) Variants.none c none) E (cc0__edge_kernel_body i a.arg2 a.harg2 a.arg3 a.harg3 a.arg4 a.harg4 a.arg5 a.harg5 a.arg6 a.harg6 a.arg7 a.harg7 a.arg8 a.harg8 a.arg9 a.harg9 a.arg10 a.harg10 a.arg11 a.harg11) K } := by
  refine ⟨[], ?_, ?_, fun xi7 E K => ?run⟩
  case run =>
    simp only [cc0__edge_kernel_body_eq_skeleton]; unfold cc0__edge_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg9, owns_eq_unread (c : Thread nD τ) a.harg10, owns_eq_unread (c : Thread nD τ) a.harg11]
    iintro ⟨H0, H1, H2, H3, H4, H5, H6, H7, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    iexists _; iexact HS1

end Cert.Kernel.Edge

end
-- ==== Proof.KB_EdgeRunLast.lean ====
import proofs.«410833_j1056561954999_1_alg».proof.Proof.KB_EdgeRunMid

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (a : Call) (hc0 : ¬condFirst i) (hc1 : condLast i)
    (x : Blocks F) (xs0 : Vec F S1024x128 .f32) (xs1 : Vec F S1024x128 .f32) :
    Σ' (L7 : List (View.Piece (Elt F) S1024x128 .bf16)), Σ' (LS0 : List (View.Piece (Elt F) S1024x128 .f32)), { LS1 : List (View.Piece (Elt F) S1024x128 .f32) //
      ∀ (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ (∃ d, owns (c : Thread nD τ) a.arg9 fullShare d) ∗ owns (c : Thread nD τ) a.arg10 fullShare xs0 ∗ owns (c : Thread nD τ) a.arg11 fullShare xs1
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ (∃ f, a.arg9.view.loc (c : Thread nD τ) ↦[a.arg9.view.set]{fullShare} a.arg9.view.writes (Elt F) f L7) ∗ (∃ f, a.arg10.view.loc (c : Thread nD τ) ↦[a.arg10.view.set]{fullShare} a.arg10.view.writes (Elt F) f LS0) ∗ (∃ f, a.arg11.view.loc (c : Thread nD τ) ↦[a.arg11.view.set]{fullShare} a.arg11.view.writes (Elt F) f LS1)) -∗ K ⟨⟩))
          ⊢ wp frame (wpE (defs₀ (F := F)) Variants.none c none) E (cc0__edge_kernel_body i a.arg2 a.harg2 a.arg3 a.harg3 a.arg4 a.harg4 a.arg5 a.harg5 a.arg6 a.harg6 a.arg7 a.harg7 a.arg8 a.harg8 a.arg9 a.harg9 a.arg10 a.harg10 a.arg11 a.harg11) K } := by
  refine ⟨?_, ?_, ?_, fun E K => ?run⟩
  case run =>
    simp only [cc0__edge_kernel_body_eq_skeleton]; unfold cc0__edge_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg10, owns_eq_unread (c : Thread nD τ) a.harg11]
    unfold owns
    iintro ⟨H0, H1, H2, H3, H4, H5, H6, ⟨%d7, %f7, -, H7⟩, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    iexists _; iexact HS1

end Cert.Kernel.Edge

end
-- ==== Proof.KB_EdgeFrame.lean ====
import proofs.«410833_j1056561954999_1_alg».proof.Proof.KB_EdgeRunLast

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out_First (c : Dev nD) (i : grid0.Coords) (a : Call) (hc0 : condFirst i) (hc1 : ¬condLast i)
    (x : Blocks F) : Vec F S1024x128 .bf16 :=
  VO.read (Elt F) (VO.writes (Elt F) VO.junk (runFirst c i a hc0 hc1 x).1)

theorem scover_First_0 (c : Dev nD) (i : grid0.Coords) (a : Call) (hc0 : condFirst i) (hc1 : ¬condLast i)
    (x : Blocks F) (y : S1024x128.Idx) :
    ∃ pc ∈ (runFirst c i a hc0 hc1 x).2.1, y ∈ pc.1.set :=
  View.cover_of_tiledL (runFirst c i a hc0 hc1 x).2.1 S1024x128.size (by sl_kernel_rfl) y

def sout_First_0 (c : Dev nD) (i : grid0.Coords) (a : Call) (hc0 : condFirst i) (hc1 : ¬condLast i)
    (x : Blocks F) : Vec F S1024x128 .f32 :=
  VS_0.read (Elt F) (VS_0.writes (Elt F) VS_0.junk (runFirst c i a hc0 hc1 x).2.1)

theorem scover_First_1 (c : Dev nD) (i : grid0.Coords) (a : Call) (hc0 : condFirst i) (hc1 : ¬condLast i)
    (x : Blocks F) (y : S1024x128.Idx) :
    ∃ pc ∈ (runFirst c i a hc0 hc1 x).2.2.1, y ∈ pc.1.set :=
  View.cover_of_tiledL (runFirst c i a hc0 hc1 x).2.2.1 S1024x128.size (by sl_kernel_rfl) y

def sout_First_1 (c : Dev nD) (i : grid0.Coords) (a : Call) (hc0 : condFirst i) (hc1 : ¬condLast i)
    (x : Blocks F) : Vec F S1024x128 .f32 :=
  VS_1.read (Elt F) (VS_1.writes (Elt F) VS_1.junk (runFirst c i a hc0 hc1 x).2.2.1)

def out_Mid (c : Dev nD) (i : grid0.Coords) (a : Call) (hc0 : ¬condFirst i) (hc1 : ¬condLast i)
    (x : Blocks F) (xs0 : Vec F S1024x128 .f32) (xs1 : Vec F S1024x128 .f32) : Vec F S1024x128 .bf16 :=
  VO.read (Elt F) (VO.writes (Elt F) VO.junk (runMid c i a hc0 hc1 x xs0 xs1).1)

theorem scover_Mid_0 (c : Dev nD) (i : grid0.Coords) (a : Call) (hc0 : ¬condFirst i) (hc1 : ¬condLast i)
    (x : Blocks F) (xs0 : Vec F S1024x128 .f32) (xs1 : Vec F S1024x128 .f32) (y : S1024x128.Idx) :
    ∃ pc ∈ (runMid c i a hc0 hc1 x xs0 xs1).2.1, y ∈ pc.1.set :=
  View.cover_of_tiledL (runMid c i a hc0 hc1 x xs0 xs1).2.1 S1024x128.size (by sl_kernel_rfl) y

def sout_Mid_0 (c : Dev nD) (i : grid0.Coords) (a : Call) (hc0 : ¬condFirst i) (hc1 : ¬condLast i)
    (x : Blocks F) (xs0 : Vec F S1024x128 .f32) (xs1 : Vec F S1024x128 .f32) : Vec F S1024x128 .f32 :=
  VS_0.read (Elt F) (VS_0.writes (Elt F) VS_0.junk (runMid c i a hc0 hc1 x xs0 xs1).2.1)

theorem scover_Mid_1 (c : Dev nD) (i : grid0.Coords) (a : Call) (hc0 : ¬condFirst i) (hc1 : ¬condLast i)
    (x : Blocks F) (xs0 : Vec F S1024x128 .f32) (xs1 : Vec F S1024x128 .f32) (y : S1024x128.Idx) :
    ∃ pc ∈ (runMid c i a hc0 hc1 x xs0 xs1).2.2.1, y ∈ pc.1.set :=
  View.cover_of_tiledL (runMid c i a hc0 hc1 x xs0 xs1).2.2.1 S1024x128.size (by sl_kernel_rfl) y

def sout_Mid_1 (c : Dev nD) (i : grid0.Coords) (a : Call) (hc0 : ¬condFirst i) (hc1 : ¬condLast i)
    (x : Blocks F) (xs0 : Vec F S1024x128 .f32) (xs1 : Vec F S1024x128 .f32) : Vec F S1024x128 .f32 :=
  VS_1.read (Elt F) (VS_1.writes (Elt F) VS_1.junk (runMid c i a hc0 hc1 x xs0 xs1).2.2.1)

theorem cover_Last (c : Dev nD) (i : grid0.Coords) (a : Call) (hc0 : ¬condFirst i) (hc1 : condLast i)
    (x : Blocks F) (xs0 : Vec F S1024x128 .f32) (xs1 : Vec F S1024x128 .f32) (y : S1024x128.Idx) :
    ∃ pc ∈ (runLast c i a hc0 hc1 x xs0 xs1).1, y ∈ pc.1.set :=
  View.cover_of_tiledL (runLast c i a hc0 hc1 x xs0 xs1).1 S1024x128.size (by sl_kernel_rfl) y

def out_Last (c : Dev nD) (i : grid0.Coords) (a : Call) (hc0 : ¬condFirst i) (hc1 : condLast i)
    (x : Blocks F) (xs0 : Vec F S1024x128 .f32) (xs1 : Vec F S1024x128 .f32) : Vec F S1024x128 .bf16 :=
  VO.read (Elt F) (VO.writes (Elt F) VO.junk (runLast c i a hc0 hc1 x xs0 xs1).1)

theorem scover_Last_0 (c : Dev nD) (i : grid0.Coords) (a : Call) (hc0 : ¬condFirst i) (hc1 : condLast i)
    (x : Blocks F) (xs0 : Vec F S1024x128 .f32) (xs1 : Vec F S1024x128 .f32) (y : S1024x128.Idx) :
    ∃ pc ∈ (runLast c i a hc0 hc1 x xs0 xs1).2.1, y ∈ pc.1.set :=
  View.cover_of_tiledL (runLast c i a hc0 hc1 x xs0 xs1).2.1 S1024x128.size (by sl_kernel_rfl) y

def sout_Last_0 (c : Dev nD) (i : grid0.Coords) (a : Call) (hc0 : ¬condFirst i) (hc1 : condLast i)
    (x : Blocks F) (xs0 : Vec F S1024x128 .f32) (xs1 : Vec F S1024x128 .f32) : Vec F S1024x128 .f32 :=
  VS_0.read (Elt F) (VS_0.writes (Elt F) VS_0.junk (runLast c i a hc0 hc1 x xs0 xs1).2.1)

theorem scover_Last_1 (c : Dev nD) (i : grid0.Coords) (a : Call) (hc0 : ¬condFirst i) (hc1 : condLast i)
    (x : Blocks F) (xs0 : Vec F S1024x128 .f32) (xs1 : Vec F S1024x128 .f32) (y : S1024x128.Idx) :
    ∃ pc ∈ (runLast c i a hc0 hc1 x xs0 xs1).2.2.1, y ∈ pc.1.set :=
  View.cover_of_tiledL (runLast c i a hc0 hc1 x xs0 xs1).2.2.1 S1024x128.size (by sl_kernel_rfl) y

def sout_Last_1 (c : Dev nD) (i : grid0.Coords) (a : Call) (hc0 : ¬condFirst i) (hc1 : condLast i)
    (x : Blocks F) (xs0 : Vec F S1024x128 .f32) (xs1 : Vec F S1024x128 .f32) : Vec F S1024x128 .f32 :=
  VS_1.read (Elt F) (VS_1.writes (Elt F) VS_1.junk (runLast c i a hc0 hc1 x xs0 xs1).2.2.1)

def outsAt (c : Dev nD) : (n : ℕ) → n < cfg0.N → Vec F S1024x128 .bf16 × Vec F S1024x128 .f32 × Vec F S1024x128 .f32
  | 0, hn => (out_First c (grid0.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩),
        sout_First_0 c (grid0.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩),
        sout_First_1 c (grid0.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩))
  | n + 1, hn =>
    if h0 : (n + 1) % 49 = 0 then
      if h1 : (n + 1) % 49 = 48 then
        False.elim (by omega)
      else
        (out_First c (grid0.coords ⟨n + 1, hn⟩) (callAt ⟨n + 1, hn⟩) ((hcondFirst ⟨n + 1, hn⟩).mpr h0) (fun h => h1 ((hcondLast ⟨n + 1, hn⟩).mp h)) (blocksAt V c ⟨n + 1, hn⟩),
        sout_First_0 c (grid0.coords ⟨n + 1, hn⟩) (callAt ⟨n + 1, hn⟩) ((hcondFirst ⟨n + 1, hn⟩).mpr h0) (fun h => h1 ((hcondLast ⟨n + 1, hn⟩).mp h)) (blocksAt V c ⟨n + 1, hn⟩),
        sout_First_1 c (grid0.coords ⟨n + 1, hn⟩) (callAt ⟨n + 1, hn⟩) ((hcondFirst ⟨n + 1, hn⟩).mpr h0) (fun h => h1 ((hcondLast ⟨n + 1, hn⟩).mp h)) (blocksAt V c ⟨n + 1, hn⟩))
    else
      if h1 : (n + 1) % 49 = 48 then
        (out_Last c (grid0.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2.1 (outsAt c n (Nat.lt_of_succ_lt hn)).2.2,
        sout_Last_0 c (grid0.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2.1 (outsAt c n (Nat.lt_of_succ_lt hn)).2.2,
        sout_Last_1 c (grid0.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2.1 (outsAt c n (Nat.lt_of_succ_lt hn)).2.2)
      else
        (out_Mid c (grid0.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2.1 (outsAt c n (Nat.lt_of_succ_lt hn)).2.2,
        sout_Mid_0 c (grid0.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2.1 (outsAt c n (Nat.lt_of_succ_lt hn)).2.2,
        sout_Mid_1 c (grid0.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2.1 (outsAt c n (Nat.lt_of_succ_lt hn)).2.2)

theorem outsAt_First (c : Dev nD) (t : Fin cfg0.N) (h0 : t.val % 49 = 0) (h1 : ¬t.val % 49 = 48) :
    outsAt V c t.val t.isLt = (out_First c (grid0.coords t) (callAt t) ((hcondFirst t).mpr h0) (fun h => h1 ((hcondLast t).mp h)) (blocksAt V c t),
        sout_First_0 c (grid0.coords t) (callAt t) ((hcondFirst t).mpr h0) (fun h => h1 ((hcondLast t).mp h)) (blocksAt V c t),
        sout_First_1 c (grid0.coords t) (callAt t) ((hcondFirst t).mpr h0) (fun h => h1 ((hcondLast t).mp h)) (blocksAt V c t)) := by
  obtain ⟨n, hn⟩ := t
  cases n with
  | zero => exact rfl
  | succ n => exact (dif_pos h0).trans ((dif_neg h1).trans rfl)

theorem outsAt_Mid (c : Dev nD) (t : Fin cfg0.N) (h0 : ¬t.val % 49 = 0) (h1 : ¬t.val % 49 = 48) :
    outsAt V c t.val t.isLt = (out_Mid c (grid0.coords t) (callAt t) (fun h => h0 ((hcondFirst t).mp h)) (fun h => h1 ((hcondLast t).mp h)) (blocksAt V c t) (outsAt V c (t.val - 1) (Nat.lt_of_le_of_lt (Nat.sub_le _ _) t.isLt)).2.1 (outsAt V c (t.val - 1) (Nat.lt_of_le_of_lt (Nat.sub_le _ _) t.isLt)).2.2,
        sout_Mid_0 c (grid0.coords t) (callAt t) (fun h => h0 ((hcondFirst t).mp h)) (fun h => h1 ((hcondLast t).mp h)) (blocksAt V c t) (outsAt V c (t.val - 1) (Nat.lt_of_le_of_lt (Nat.sub_le _ _) t.isLt)).2.1 (outsAt V c (t.val - 1) (Nat.lt_of_le_of_lt (Nat.sub_le _ _) t.isLt)).2.2,
        sout_Mid_1 c (grid0.coords t) (callAt t) (fun h => h0 ((hcondFirst t).mp h)) (fun h => h1 ((hcondLast t).mp h)) (blocksAt V c t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg0.N) (h0 : ¬t.val % 49 = 0) (h1 : t.val % 49 = 48) :
    outsAt V c t.val t.isLt = (out_Last c (grid0.coords t) (callAt t) (fun h => h0 ((hcondFirst t).mp h)) ((hcondLast t).mpr h1) (blocksAt V c t) (outsAt V c (t.val - 1) (Nat.lt_of_le_of_lt (Nat.sub_le _ _) t.isLt)).2.1 (outsAt V c (t.val - 1) (Nat.lt_of_le_of_lt (Nat.sub_le _ _) t.isLt)).2.2,
        sout_Last_0 c (grid0.coords t) (callAt t) (fun h => h0 ((hcondFirst t).mp h)) ((hcondLast t).mpr h1) (blocksAt V c t) (outsAt V c (t.val - 1) (Nat.lt_of_le_of_lt (Nat.sub_le _ _) t.isLt)).2.1 (outsAt V c (t.val - 1) (Nat.lt_of_le_of_lt (Nat.sub_le _ _) t.isLt)).2.2,
        sout_Last_1 c (grid0.coords t) (callAt t) (fun h => h0 ((hcondFirst t).mp h)) ((hcondLast t).mpr h1) (blocksAt V c t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM_0 fullShare ((outsAt V c n hn).2.1) ∗ owns (c : Thread nD τ) scM_1 fullShare ((outsAt V c n hn).2.2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM_0 fullShare ((outsAt V c n hn).2.1) ∗ owns (c : Thread nD τ) scM_1 fullShare ((outsAt V c n hn).2.2) ∗ others c) ∗ (∃ r, prngReg c r)) := rfl

theorem PhiS_pos (c : Dev nD) (n : ℕ) (h : n ≤ cfg0.N) (hz : n ≠ 0) :
    PhiS V c n h = iprop(iprop(owns (c : Thread nD τ) scM_0 fullShare ((outsAt V c (n - 1) (by omega)).2.1) ∗ owns (c : Thread nD τ) scM_1 fullShare ((outsAt V c (n - 1) (by omega)).2.2) ∗ others c) ∗ (∃ r, prngReg c r)) := by
  cases n with
  | zero => exact absurd rfl hz
  | succ n => rfl

-- Whatever the point, the invariant holds the accumulators at some contents.
theorem PhiS_any (c : Dev nD) (n : ℕ) (h : n ≤ cfg0.N) : PhiS V c n h
    ⊢ iprop(iprop((∃ d, owns (c : Thread nD τ) scM_0 fullShare d) ∗ (∃ d, owns (c : Thread nD τ) scM_1 fullShare d) ∗ others c) ∗ (∃ r, prngReg c r)) := by
  cases n with
  | zero => exact PhiA_open c
  | succ n =>
    rw [PhiS_succ]
    iintro ⟨⟨HS0, HS1, Hoth⟩, Hg⟩
    isplitr [Hg]
    ·
      isplitl [HS0]; · iexists _; iexact HS0
      isplitl [HS1]; · iexists _; iexact HS1
      iexact Hoth
    iexact Hg

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg0.N) :
    bodyPre V c t ⊢ wp frame (wpE (defs₀ (F := F)) Variants.none c none) Set.univ (bodyAt t) (fun _ => bodyPost V c t) := by
  unfold bodyPre bodyPost bodyAt
  simp only [before_0, before_1, before_2, before_3, before_4, before_5, before_6]
  rw [show (dat V c).owesAt () t.succ = (dat V c).owesAt () t.castSucc from rfl]
  rw [show (dat V c).Φ t.succ = PhiS V c (t.val + 1) t.isLt from rfl, PhiS_succ]
  have hN : t.val < 28714 := lt_of_lt_of_eq t.isLt (show cfg0.N = 28714 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  rw [show (dat V c).leavesExact 4 t = owns (c : Thread nD τ) (ms_4 t) fullShare ((dat V c).after 4 t) from by
    unfold Dat.leavesExact; rw [live_4 t], after_4]
  rw [show (dat V c).leavesExact 5 t = owns (c : Thread nD τ) (ms_5 t) fullShare ((dat V c).after 5 t) from by
    unfold Dat.leavesExact; rw [live_5 t], after_5]
  rw [show (dat V c).leavesExact 6 t = owns (c : Thread nD τ) (ms_6 t) fullShare ((dat V c).after 6 t) from by
    unfold Dat.leavesExact; rw [live_6 t], after_6]
  by_cases h0 : t.val % 49 = 0
  · have h1 : ¬t.val % 49 = 48 := by omega
    rw [Dat.leavesExact_idle (dat V c) 7 t (idle_7 t (fun h => h1 ((hcondLast t).mp h))) (noFlush_7 t (fun h => h1 ((hcondLast t).mp h)))]
    rw [outsAt_First V c t h0 h1]
    unfold sout_First_0 sout_First_1; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS_any V c _ _) $$ HΦ
    icases HΦ' with ⟨⟨HS0, HS1, Hoth⟩, Hg⟩
    iapply ((runFirst c (grid0.coords t) (callAt t) ((hcondFirst t).mpr h0) (fun h => h1 ((hcondLast t).mp h)) (blocksAt V c t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hoth Hg]
    · isplitl [HS0 HS1 Hoth]
      ·
        isplitl [HS0]
        · iapply (owns_of_writes _ _ _ _ (scover_First_0 c _ _ _ _ _) es0 _ _); iexact HS0
        isplitl [HS1]
        · iapply (owns_of_writes _ _ _ _ (scover_First_1 c _ _ _ _ _) es1 _ _); iexact HS1
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun hz => h0 (by rw [hz])
    by_cases h1 : t.val % 49 = 48
    · rw [show (dat V c).leavesExact 7 t = owns (c : Thread nD τ) (ms_7 t) fullShare ((dat V c).after 7 t) from by
        unfold Dat.leavesExact; rw [live_7 t ((hcondLast t).mpr h1)], after_7]
      rw [outsAt_Last V c t h0 h1]
      unfold out_Last sout_Last_0 sout_Last_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (callAt t) (fun h => h0 ((hcondFirst t).mp h)) ((hcondLast t).mpr h1) (blocksAt V c t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hoth Hg]
      · isplitl [HS0 HS1 Hoth]
        ·
          isplitl [HS0]
          · iapply (owns_of_writes _ _ _ _ (scover_Last_0 c _ _ _ _ _ _ _) es0 _ _); iexact HS0
          isplitl [HS1]
          · iapply (owns_of_writes _ _ _ _ (scover_Last_1 c _ _ _ _ _ _ _) es1 _ _); iexact HS1
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (owns_of_writes _ _ _ _ (cover_Last c _ _ _ _ _ _ _) e7 _ _); iexact H7
    · rw [Dat.leavesExact_idle (dat V c) 7 t (idle_7 t (fun h => h1 ((hcondLast t).mp h))) (noFlush_7 t (fun h => h1 ((hcondLast t).mp h)))]
      rw [outsAt_Mid V c t h0 h1]
      unfold sout_Mid_0 sout_Mid_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) (callAt t) (fun h => h0 ((hcondFirst t).mp h)) (fun h => h1 ((hcondLast t).mp h)) (blocksAt V c t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hoth Hg]
      · isplitl [HS0 HS1 Hoth]
        ·
          isplitl [HS0]
          · iapply (owns_of_writes _ _ _ _ (scover_Mid_0 c _ _ _ _ _ _ _) es0 _ _); iexact HS0
          isplitl [HS1]
          · iapply (owns_of_writes _ _ _ _ (scover_Mid_1 c _ _ _ _ _ _ _) es1 _ _); iexact HS1
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) : (dat V c).Φ t ⊢ Pipeline.ΦA spec0 c := by
  rw [show (dat V c).Φ t = PhiS V c t.val (Nat.le_of_lt_succ t.isLt) from rfl]
  exact (PhiS_any V c _ _).trans (PhiA_close c)

theorem hout (c : Dev nD) : (dat V c).Φ (Fin.last cfg0.N) ⊢ Pipeline.ΦA spec0 c := Phi_out V c _

end Cert.Kernel.Edge

end
-- ==== Proof.KB_NodeShared.lean ====
import proofs.«410833_j1056561954999_1_alg».proof.Proof.Gen.Kernel.Launch
import proofs.«410833_j1056561954999_1_alg».proof.Proof.Gen.Kernel.Skeleton
import proofs.«410833_j1056561954999_1_alg».proof.Proof.LibOwns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem coord_inner (t : Fin grid1.N) : (grid1.coords t 1).val = t.val % 586 := by
  show t.val / grid1.stride 1 % grid1.bound 1 = t.val % 586
  rw [show grid1.stride 1 = 1 from by decide, show grid1.bound 1 = 586 from rfl, Nat.div_one]

theorem coord_outer (t : Fin grid1.N) : (grid1.coords t 0).val = t.val / 586 := by
  have h : t.val < 28714 := lt_of_lt_of_eq t.isLt N_1
  show t.val / grid1.stride 0 % grid1.bound 0 = t.val / 586
  rw [show grid1.stride 0 = 586 from by decide, show grid1.bound 0 = 49 from rfl]
  exact Nat.mod_eq_of_lt (by omega)

abbrev condFirst (i : grid1.Coords) : Prop := (Scalar.cmpi .ne (Scalar.extui (Scalar.cmpi .eq (BitVec.ofNat 32 (i 1).val) 0#32)) 0#32) = 1#1
theorem condFirst_iff (i : grid1.Coords) : condFirst i ↔ (i 1).val = 0 :=
  (by decide +kernel : ∀ k : Fin 586, (Scalar.cmpi .ne (Scalar.extui (Scalar.cmpi .eq (BitVec.ofNat 32 k.val) 0#32)) 0#32) = 1#1 ↔ k.val = 0) (i 1)
theorem hcondFirst (t : Fin cfg1.N) : condFirst (grid1.coords t) ↔ t.val % 586 = 0 := by
  rw [condFirst_iff, coord_inner]

abbrev condLast (i : grid1.Coords) : Prop := k1_cond2 i = 1#1
theorem condLast_iff (i : grid1.Coords) : condLast i ↔ (i 1).val = 585 :=
  (by decide +kernel : ∀ k : Fin 586, (Scalar.cmpi .ne (Scalar.extui (Scalar.cmpi .eq (BitVec.ofNat 32 k.val) 585#32)) 0#32) = 1#1 ↔ k.val = 585) (i 1)
theorem hcondLast (t : Fin cfg1.N) : condLast (grid1.coords t) ↔ t.val % 586 = 585 := by
  rw [condLast_iff, coord_inner]

theorem index_7 (t : Fin grid1.N) : win1_7.index t = ![t.val / 586, 0] := by
  have h : t.val < 28714 := lt_of_lt_of_eq t.isLt N_1
  funext a
  match a with
  | ⟨0, _⟩ =>
    show (BitVec.ofNat 32 (grid1.coords t 0).val).toNat = t.val / 586
    rw [coord_outer, BitVec.toNat_ofNat]
    exact Nat.mod_eq_of_lt (by omega)
  | ⟨1, _⟩ => rfl

theorem flush_7_iff (t : Fin cfg1.N) : (cfg1.win 7).flush t = true ↔ t.val % 586 = 585 := by
  have hN : t.val < 28714 := lt_of_lt_of_eq t.isLt (show cfg1.N = 28714 from N_1)
  have hG : grid1.N = 28714 := N_1
  show Pipeline.Window.flush win1_7 t = true ↔ _
  unfold Pipeline.Window.flush
  rw [show win1_7.isOut = true from rfl, Bool.true_and, Bool.or_eq_true, decide_eq_true_eq, decide_eq_true_eq]
  constructor
  · rintro (h | ⟨h, hne⟩)
    · omega
    · have hd : (t.val + 1) / 586 ≠ t.val / 586 := fun e => hne (by rw [index_7, index_7]; show ![(t.val + 1) / 586, 0] = _; rw [e])
      omega
  · intro hL
    by_cases h : t.val + 1 = grid1.N
    · exact Or.inl h
    · refine Or.inr ⟨by omega, fun e => ?_⟩
      rw [index_7, index_7] at e
      have e1 : (t.val + 1) / 586 = t.val / 586 := congrFun e 0
      omega

theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cfg1.idle 3 (grid1.coords t) = false := fun _ => rfl
theorem live_4 : ∀ t : Fin cfg1.N, cfg1.idle 4 (grid1.coords t) = false := fun _ => rfl
theorem live_5 : ∀ t : Fin cfg1.N, cfg1.idle 5 (grid1.coords t) = false := fun _ => rfl
theorem live_6 : ∀ t : Fin cfg1.N, cfg1.idle 6 (grid1.coords t) = false := fun _ => rfl

theorem idle_7 : ∀ t : Fin cfg1.N, ¬condLast (grid1.coords t) → cfg1.idle 7 (grid1.coords t) = true := by
  intro t h
  show (!(k1_cond2 (grid1.coords t) == 1#1)) = true
  simp only [Bool.not_eq_true', beq_eq_false_iff_ne, ne_eq]
  exact h
theorem noFlush_7 : ∀ t : Fin cfg1.N, ¬condLast (grid1.coords t) → (cfg1.win 7).flush t = false :=
  fun t h => Bool.eq_false_iff.mpr fun hf => h ((hcondLast t).mpr ((flush_7_iff t).mp hf))

theorem live_7 : ∀ t : Fin cfg1.N, condLast (grid1.coords t) → cfg1.idle 7 (grid1.coords t) = false := by
  intro t h
  show (!(k1_cond2 (grid1.coords t) == 1#1)) = false
  simp only [Bool.not_eq_false', beq_iff_eq]
  exact h

abbrev VO : View sig .tc .vmem S1024x128 .f32 := (Memref.whole cc1_stg7_0 : Memref sig .tc .vmem S1024x128 .f32).view
abbrev ms_0 (t : Fin cfg1.N) : Memref sig .tc .vmem S1x1024 .i32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S256x128 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S128 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S128x128 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S128 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1024x128 .f32 := win1_7.stage (cfg1.slots t 7)
abbrev hs_7 (t : Fin cfg1.N) : (ms_7 t).IsWhole := hstage1_7 ((cfg1.slots t 7).cast nbuf1_7)

abbrev scM_0 : Memref sig .tc .vmem S1024x128 .f32 := Memref.whole cc1_scratch0
abbrev VS_0 : View sig .tc .vmem S1024x128 .f32 := scM_0.view

-- What one call of the body takes: every window's memref and the accumulators', each whole.
set_option genInjectivity false in
set_option genSizeOfSpec false in
structure Call where
  arg2 : Memref sig .tc .vmem S1x1024 .i32
  harg2 : arg2.IsWhole
  arg3 : Memref sig .tc .vmem S1024x128 .bf16
  harg3 : arg3.IsWhole
  arg4 : Memref sig .tc .vmem S1024x128 .f32
  harg4 : arg4.IsWhole
  arg5 : Memref sig .tc .vmem S256x128 .f32
  harg5 : arg5.IsWhole
  arg6 : Memref sig .tc .vmem S128 .f32
  harg6 : arg6.IsWhole
  arg7 : Memref sig .tc .vmem S128x128 .f32
  harg7 : arg7.IsWhole
  arg8 : Memref sig .tc .vmem S128 .f32
  harg8 : arg8.IsWhole
  arg9 : Memref sig .tc .vmem S1024x128 .f32
  harg9 : arg9.IsWhole
  arg10 : Memref sig .tc .vmem S1024x128 .f32
  harg10 : arg10.IsWhole

-- The input blocks one call of the body loads.
set_option genInjectivity false in
set_option genSizeOfSpec false in
structure Blocks (F : FTy → Type) where
  x0 : Vec F S1x1024 .i32
  x1 : Vec F S1024x128 .bf16
  x2 : Vec F S1024x128 .f32
  x3 : Vec F S256x128 .f32
  x4 : Vec F S128 .f32
  x5 : Vec F S128x128 .f32
  x6 : Vec F S128 .f32

abbrev callAt (t : Fin cfg1.N) : Call :=
  ⟨ms_0 t, hs_0 t, ms_1 t, hs_1 t, ms_2 t, hs_2 t, ms_3 t, hs_3 t, ms_4 t, hs_4 t, ms_5 t, hs_5 t, ms_6 t, hs_6 t, ms_7 t, hs_7 t, scM_0, Memref.isWhole_whole _⟩

abbrev blocksAt (c : Dev nD) (t : Fin cfg1.N) : Blocks F :=
  ⟨iblk V c 0 t, iblk V c 1 t, iblk V c 2 t, iblk V c 3 t, iblk V c 4 t, iblk V c 5 t, iblk V c 6 t⟩

abbrev bodyAt (t : Fin cfg1.N) : Prog (TpuEff nD τ sig (Elt F) Λ₀ .tc) PUnit :=
  cc1__node_kernel_body (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _)

def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

theorem PhiA_open (c : Dev nD) : (Pipeline.ΦA spec1 c : sProp 𝕄)
    ⊢ iprop(iprop((∃ d, owns (c : Thread nD τ) scM_0 fullShare d) ∗ others c) ∗ (∃ r, prngReg c r)) := by
  unfold Pipeline.ΦA others; rw [scopedRest1_eq]; simp only [scM_0, owns_whole]
  iintro ⟨⟨H0, H1, H2, H3, H4, H5, H6, H7, H8, H9, H10, H11, H12, H13, HS0⟩, Hg⟩
  isplitr [Hg]
  ·
    isplitl [HS0]; · iexact HS0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

theorem PhiA_close (c : Dev nD) : iprop(iprop((∃ d, owns (c : Thread nD τ) scM_0 fullShare d) ∗ others c) ∗ (∃ r, prngReg c r))
    ⊢ (Pipeline.ΦA spec1 c : sProp 𝕄) := by
  unfold Pipeline.ΦA others; rw [scopedRest1_eq]; simp only [scM_0, owns_whole]
  iintro ⟨⟨HS0, H0, H1, H2, H3, H4, H5, H6, H7, H8, H9, H10, H11, H12, H13⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS0
  iexact Hg

end Cert.Kernel.Node

end
-- ==== Proof.KB_NodeRunFirst.lean ====
import proofs.«410833_j1056561954999_1_alg».proof.Proof.KB_NodeShared

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (a : Call) (hc0 : condFirst i) (hc1 : ¬condLast i)
    (x : Blocks F) :
    Σ' (L7 : List (View.Piece (Elt F) S1024x128 .f32)), { LS0 : List (View.Piece (Elt F) S1024x128 .f32) //
      ∀ (xi7 : Vec F S1024x128 .f32) (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ d, owns (c : Thread nD τ) a.arg10 fullShare d)
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ f, a.arg10.view.loc (c : Thread nD τ) ↦[a.arg10.view.set]{fullShare} a.arg10.view.writes (Elt F) f LS0)) -∗ K ⟨⟩))
          ⊢ wp frame (wpE (defs₀ (F := F)) Variants.none c none) E (cc1__node_kernel_body i a.arg2 a.harg2 a.arg3 a.harg3 a.arg4 a.harg4 a.arg5 a.harg5 a.arg6 a.harg6 a.arg7 a.harg7 a.arg8 a.harg8 a.arg9 a.harg9 a.arg10 a.harg10) K } := by
  refine ⟨[], ?_, fun xi7 E K => ?run⟩
  case run =>
    simp only [cc1__node_kernel_body_eq_skeleton]; unfold cc1__node_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg9]
    unfold owns
    iintro ⟨H0, H1, H2, H3, H4, H5, H6, H7, ⟨%ds0, %fs0, -, HS0⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS0

end Cert.Kernel.Node

end
-- ==== Proof.KB_NodeRunMid.lean ====
import proofs.«410833_j1056561954999_1_alg».proof.Proof.KB_NodeRunFirst

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (a : Call) (hc0 : ¬condFirst i) (hc1 : ¬condLast i)
    (x : Blocks F) (xs0 : Vec F S1024x128 .f32) :
    Σ' (L7 : List (View.Piece (Elt F) S1024x128 .f32)), { LS0 : List (View.Piece (Elt F) S1024x128 .f32) //
      ∀ (xi7 : Vec F S1024x128 .f32) (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ owns (c : Thread nD τ) a.arg10 fullShare xs0
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ f, a.arg10.view.loc (c : Thread nD τ) ↦[a.arg10.view.set]{fullShare} a.arg10.view.writes (Elt F) f LS0)) -∗ K ⟨⟩))
          ⊢ wp frame (wpE (defs₀ (F := F)) Variants.none c none) E (cc1__node_kernel_body i a.arg2 a.harg2 a.arg3 a.harg3 a.arg4 a.harg4 a.arg5 a.harg5 a.arg6 a.harg6 a.arg7 a.harg7 a.arg8 a.harg8 a.arg9 a.harg9 a.arg10 a.harg10) K } := by
  refine ⟨[], ?_, fun xi7 E K => ?run⟩
  case run =>
    simp only [cc1__node_kernel_body_eq_skeleton]; unfold cc1__node_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg9, owns_eq_unread (c : Thread nD τ) a.harg10]
    iintro ⟨H0, H1, H2, H3, H4, H5, H6, H7, HS0, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS0

end Cert.Kernel.Node

end
-- ==== Proof.KB_NodeRunLast.lean ====
import proofs.«410833_j1056561954999_1_alg».proof.Proof.KB_NodeRunMid

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (a : Call) (hc0 : ¬condFirst i) (hc1 : condLast i)
    (x : Blocks F) (xs0 : Vec F S1024x128 .f32) :
    Σ' (L7 : List (View.Piece (Elt F) S1024x128 .f32)), { LS0 : List (View.Piece (Elt F) S1024x128 .f32) //
      ∀ (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ (∃ d, owns (c : Thread nD τ) a.arg9 fullShare d) ∗ owns (c : Thread nD τ) a.arg10 fullShare xs0
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ (∃ f, a.arg9.view.loc (c : Thread nD τ) ↦[a.arg9.view.set]{fullShare} a.arg9.view.writes (Elt F) f L7) ∗ (∃ f, a.arg10.view.loc (c : Thread nD τ) ↦[a.arg10.view.set]{fullShare} a.arg10.view.writes (Elt F) f LS0)) -∗ K ⟨⟩))
          ⊢ wp frame (wpE (defs₀ (F := F)) Variants.none c none) E (cc1__node_kernel_body i a.arg2 a.harg2 a.arg3 a.harg3 a.arg4 a.harg4 a.arg5 a.harg5 a.arg6 a.harg6 a.arg7 a.harg7 a.arg8 a.harg8 a.arg9 a.harg9 a.arg10 a.harg10) K } := by
  refine ⟨?_, ?_, fun E K => ?run⟩
  case run =>
    simp only [cc1__node_kernel_body_eq_skeleton]; unfold cc1__node_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg10]
    unfold owns
    iintro ⟨H0, H1, H2, H3, H4, H5, H6, ⟨%d7, %f7, -, H7⟩, HS0, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact HS0

end Cert.Kernel.Node

end
-- ==== Proof.KB_NodeFrame.lean ====
import proofs.«410833_j1056561954999_1_alg».proof.Proof.KB_NodeRunLast

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out_First (c : Dev nD) (i : grid1.Coords) (a : Call) (hc0 : condFirst i) (hc1 : ¬condLast i)
    (x : Blocks F) : Vec F S1024x128 .f32 :=
  VO.read (Elt F) (VO.writes (Elt F) VO.junk (runFirst c i a hc0 hc1 x).1)

theorem scover_First_0 (c : Dev nD) (i : grid1.Coords) (a : Call) (hc0 : condFirst i) (hc1 : ¬condLast i)
    (x : Blocks F) (y : S1024x128.Idx) :
    ∃ pc ∈ (runFirst c i a hc0 hc1 x).2.1, y ∈ pc.1.set :=
  View.cover_of_tiledL (runFirst c i a hc0 hc1 x).2.1 S1024x128.size (by sl_kernel_rfl) y

def sout_First_0 (c : Dev nD) (i : grid1.Coords) (a : Call) (hc0 : condFirst i) (hc1 : ¬condLast i)
    (x : Blocks F) : Vec F S1024x128 .f32 :=
  VS_0.read (Elt F) (VS_0.writes (Elt F) VS_0.junk (runFirst c i a hc0 hc1 x).2.1)

def out_Mid (c : Dev nD) (i : grid1.Coords) (a : Call) (hc0 : ¬condFirst i) (hc1 : ¬condLast i)
    (x : Blocks F) (xs0 : Vec F S1024x128 .f32) : Vec F S1024x128 .f32 :=
  VO.read (Elt F) (VO.writes (Elt F) VO.junk (runMid c i a hc0 hc1 x xs0).1)

theorem scover_Mid_0 (c : Dev nD) (i : grid1.Coords) (a : Call) (hc0 : ¬condFirst i) (hc1 : ¬condLast i)
    (x : Blocks F) (xs0 : Vec F S1024x128 .f32) (y : S1024x128.Idx) :
    ∃ pc ∈ (runMid c i a hc0 hc1 x xs0).2.1, y ∈ pc.1.set :=
  View.cover_of_tiledL (runMid c i a hc0 hc1 x xs0).2.1 S1024x128.size (by sl_kernel_rfl) y

def sout_Mid_0 (c : Dev nD) (i : grid1.Coords) (a : Call) (hc0 : ¬condFirst i) (hc1 : ¬condLast i)
    (x : Blocks F) (xs0 : Vec F S1024x128 .f32) : Vec F S1024x128 .f32 :=
  VS_0.read (Elt F) (VS_0.writes (Elt F) VS_0.junk (runMid c i a hc0 hc1 x xs0).2.1)

theorem cover_Last (c : Dev nD) (i : grid1.Coords) (a : Call) (hc0 : ¬condFirst i) (hc1 : condLast i)
    (x : Blocks F) (xs0 : Vec F S1024x128 .f32) (y : S1024x128.Idx) :
    ∃ pc ∈ (runLast c i a hc0 hc1 x xs0).1, y ∈ pc.1.set :=
  View.cover_of_tiledL (runLast c i a hc0 hc1 x xs0).1 S1024x128.size (by sl_kernel_rfl) y

def out_Last (c : Dev nD) (i : grid1.Coords) (a : Call) (hc0 : ¬condFirst i) (hc1 : condLast i)
    (x : Blocks F) (xs0 : Vec F S1024x128 .f32) : Vec F S1024x128 .f32 :=
  VO.read (Elt F) (VO.writes (Elt F) VO.junk (runLast c i a hc0 hc1 x xs0).1)

theorem scover_Last_0 (c : Dev nD) (i : grid1.Coords) (a : Call) (hc0 : ¬condFirst i) (hc1 : condLast i)
    (x : Blocks F) (xs0 : Vec F S1024x128 .f32) (y : S1024x128.Idx) :
    ∃ pc ∈ (runLast c i a hc0 hc1 x xs0).2.1, y ∈ pc.1.set :=
  View.cover_of_tiledL (runLast c i a hc0 hc1 x xs0).2.1 S1024x128.size (by sl_kernel_rfl) y

def sout_Last_0 (c : Dev nD) (i : grid1.Coords) (a : Call) (hc0 : ¬condFirst i) (hc1 : condLast i)
    (x : Blocks F) (xs0 : Vec F S1024x128 .f32) : Vec F S1024x128 .f32 :=
  VS_0.read (Elt F) (VS_0.writes (Elt F) VS_0.junk (runLast c i a hc0 hc1 x xs0).2.1)

def outsAt (c : Dev nD) : (n : ℕ) → n < cfg1.N → Vec F S1024x128 .f32 × Vec F S1024x128 .f32
  | 0, hn => (out_First c (grid1.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩),
        sout_First_0 c (grid1.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩))
  | n + 1, hn =>
    if h0 : (n + 1) % 586 = 0 then
      if h1 : (n + 1) % 586 = 585 then
        False.elim (by omega)
      else
        (out_First c (grid1.coords ⟨n + 1, hn⟩) (callAt ⟨n + 1, hn⟩) ((hcondFirst ⟨n + 1, hn⟩).mpr h0) (fun h => h1 ((hcondLast ⟨n + 1, hn⟩).mp h)) (blocksAt V c ⟨n + 1, hn⟩),
        sout_First_0 c (grid1.coords ⟨n + 1, hn⟩) (callAt ⟨n + 1, hn⟩) ((hcondFirst ⟨n + 1, hn⟩).mpr h0) (fun h => h1 ((hcondLast ⟨n + 1, hn⟩).mp h)) (blocksAt V c ⟨n + 1, hn⟩))
    else
      if h1 : (n + 1) % 586 = 585 then
        (out_Last c (grid1.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2,
        sout_Last_0 c (grid1.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2)
      else
        (out_Mid c (grid1.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2,
        sout_Mid_0 c (grid1.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2)

theorem outsAt_First (c : Dev nD) (t : Fin cfg1.N) (h0 : t.val % 586 = 0) (h1 : ¬t.val % 586 = 585) :
    outsAt V c t.val t.isLt = (out_First c (grid1.coords t) (callAt t) ((hcondFirst t).mpr h0) (fun h => h1 ((hcondLast t).mp h)) (blocksAt V c t),
        sout_First_0 c (grid1.coords t) (callAt t) ((hcondFirst t).mpr h0) (fun h => h1 ((hcondLast t).mp h)) (blocksAt V c t)) := by
  obtain ⟨n, hn⟩ := t
  cases n with
  | zero => exact rfl
  | succ n => exact (dif_pos h0).trans ((dif_neg h1).trans rfl)

theorem outsAt_Mid (c : Dev nD) (t : Fin cfg1.N) (h0 : ¬t.val % 586 = 0) (h1 : ¬t.val % 586 = 585) :
    outsAt V c t.val t.isLt = (out_Mid c (grid1.coords t) (callAt t) (fun h => h0 ((hcondFirst t).mp h)) (fun h => h1 ((hcondLast t).mp h)) (blocksAt V c t) (outsAt V c (t.val - 1) (Nat.lt_of_le_of_lt (Nat.sub_le _ _) t.isLt)).2,
        sout_Mid_0 c (grid1.coords t) (callAt t) (fun h => h0 ((hcondFirst t).mp h)) (fun h => h1 ((hcondLast t).mp h)) (blocksAt V c t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg1.N) (h0 : ¬t.val % 586 = 0) (h1 : t.val % 586 = 585) :
    outsAt V c t.val t.isLt = (out_Last c (grid1.coords t) (callAt t) (fun h => h0 ((hcondFirst t).mp h)) ((hcondLast t).mpr h1) (blocksAt V c t) (outsAt V c (t.val - 1) (Nat.lt_of_le_of_lt (Nat.sub_le _ _) t.isLt)).2,
        sout_Last_0 c (grid1.coords t) (callAt t) (fun h => h0 ((hcondFirst t).mp h)) ((hcondLast t).mpr h1) (blocksAt V c t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scM_0 fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM_0 fullShare ((outsAt V c n hn).2) ∗ others c) ∗ (∃ r, prngReg c r)) := rfl

theorem PhiS_pos (c : Dev nD) (n : ℕ) (h : n ≤ cfg1.N) (hz : n ≠ 0) :
    PhiS V c n h = iprop(iprop(owns (c : Thread nD τ) scM_0 fullShare ((outsAt V c (n - 1) (by omega)).2) ∗ others c) ∗ (∃ r, prngReg c r)) := by
  cases n with
  | zero => exact absurd rfl hz
  | succ n => rfl

-- Whatever the point, the invariant holds the accumulators at some contents.
theorem PhiS_any (c : Dev nD) (n : ℕ) (h : n ≤ cfg1.N) : PhiS V c n h
    ⊢ iprop(iprop((∃ d, owns (c : Thread nD τ) scM_0 fullShare d) ∗ others c) ∗ (∃ r, prngReg c r)) := by
  cases n with
  | zero => exact PhiA_open c
  | succ n =>
    rw [PhiS_succ]
    iintro ⟨⟨HS0, Hoth⟩, Hg⟩
    isplitr [Hg]
    ·
      isplitl [HS0]; · iexists _; iexact HS0
      iexact Hoth
    iexact Hg

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg1.N) :
    bodyPre V c t ⊢ wp frame (wpE (defs₀ (F := F)) Variants.none c none) Set.univ (bodyAt t) (fun _ => bodyPost V c t) := by
  unfold bodyPre bodyPost bodyAt
  simp only [before_0, before_1, before_2, before_3, before_4, before_5, before_6]
  rw [show (dat V c).owesAt () t.succ = (dat V c).owesAt () t.castSucc from rfl]
  rw [show (dat V c).Φ t.succ = PhiS V c (t.val + 1) t.isLt from rfl, PhiS_succ]
  have hN : t.val < 28714 := lt_of_lt_of_eq t.isLt (show cfg1.N = 28714 from N_1)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  rw [show (dat V c).leavesExact 4 t = owns (c : Thread nD τ) (ms_4 t) fullShare ((dat V c).after 4 t) from by
    unfold Dat.leavesExact; rw [live_4 t], after_4]
  rw [show (dat V c).leavesExact 5 t = owns (c : Thread nD τ) (ms_5 t) fullShare ((dat V c).after 5 t) from by
    unfold Dat.leavesExact; rw [live_5 t], after_5]
  rw [show (dat V c).leavesExact 6 t = owns (c : Thread nD τ) (ms_6 t) fullShare ((dat V c).after 6 t) from by
    unfold Dat.leavesExact; rw [live_6 t], after_6]
  by_cases h0 : t.val % 586 = 0
  · have h1 : ¬t.val % 586 = 585 := by omega
    rw [Dat.leavesExact_idle (dat V c) 7 t (idle_7 t (fun h => h1 ((hcondLast t).mp h))) (noFlush_7 t (fun h => h1 ((hcondLast t).mp h)))]
    rw [outsAt_First V c t h0 h1]
    unfold sout_First_0; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS_any V c _ _) $$ HΦ
    icases HΦ' with ⟨⟨HS0, Hoth⟩, Hg⟩
    iapply ((runFirst c (grid1.coords t) (callAt t) ((hcondFirst t).mpr h0) (fun h => h1 ((hcondLast t).mp h)) (blocksAt V c t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 Hoth Hg]
    · isplitl [HS0 Hoth]
      ·
        isplitl [HS0]
        · iapply (owns_of_writes _ _ _ _ (scover_First_0 c _ _ _ _ _) es0 _ _); iexact HS0
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun hz => h0 (by rw [hz])
    by_cases h1 : t.val % 586 = 585
    · rw [show (dat V c).leavesExact 7 t = owns (c : Thread nD τ) (ms_7 t) fullShare ((dat V c).after 7 t) from by
        unfold Dat.leavesExact; rw [live_7 t ((hcondLast t).mpr h1)], after_7]
      rw [outsAt_Last V c t h0 h1]
      unfold out_Last sout_Last_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) (callAt t) (fun h => h0 ((hcondFirst t).mp h)) ((hcondLast t).mpr h1) (blocksAt V c t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hoth Hg]
      · isplitl [HS0 Hoth]
        ·
          isplitl [HS0]
          · iapply (owns_of_writes _ _ _ _ (scover_Last_0 c _ _ _ _ _ _) es0 _ _); iexact HS0
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (owns_of_writes _ _ _ _ (cover_Last c _ _ _ _ _ _) e7 _ _); iexact H7
    · rw [Dat.leavesExact_idle (dat V c) 7 t (idle_7 t (fun h => h1 ((hcondLast t).mp h))) (noFlush_7 t (fun h => h1 ((hcondLast t).mp h)))]
      rw [outsAt_Mid V c t h0 h1]
      unfold sout_Mid_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) (callAt t) (fun h => h0 ((hcondFirst t).mp h)) (fun h => h1 ((hcondLast t).mp h)) (blocksAt V c t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        ·
          isplitl [HS0]
          · iapply (owns_of_writes _ _ _ _ (scover_Mid_0 c _ _ _ _ _ _) es0 _ _); iexact HS0
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) : (dat V c).Φ t ⊢ Pipeline.ΦA spec1 c := by
  rw [show (dat V c).Φ t = PhiS V c t.val (Nat.le_of_lt_succ t.isLt) from rfl]
  exact (PhiS_any V c _ _).trans (PhiA_close c)

theorem hout (c : Dev nD) : (dat V c).Φ (Fin.last cfg1.N) ⊢ Pipeline.ΦA spec1 c := Phi_out V c _

end Cert.Kernel.Node

end
-- ==== Proof.KB_Assemble.lean ====
import proofs.«410833_j1056561954999_1_alg».proof.Proof.KB_Host
import proofs.«410833_j1056561954999_1_alg».proof.Proof.KB_EdgeFrame
import proofs.«410833_j1056561954999_1_alg».proof.Proof.KB_NodeFrame
import Idealize.ShloMosaic.Lib.Pipeline.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def W7 (c : Dev nD) : Valuation τ sig (Elt F) :=
  Pipeline.withArrays spec0 c (W6 m c) fun w => (Edge.dat (V6 m) c).arrAt w cfg0.N
theorem W7_arr (c : Dev nD) (w : Fin cfg0.W) :
    W7 m c (Proc.devRef .tc (Pipeline.arrRef spec0 w)) = (Edge.dat (V6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb

abbrev V7 : (c : Dev nD) → (b : Ref sig .tc) → Buf (Elt F) ((c : Thread nD τ).loc b) := fun c b => W7 m c b
theorem hF0 (c : Dev nD) (w : Fin cfg0.W) : (Edge.dat (V6 m) c).arrAt w cfg0.N = V7 m c (Pipeline.arrRef spec0 w) :=
  (W7_arr m c w).symm
theorem hrest0 (c : Dev nD) : ∀ b, b ∉ Finset.univ.image (Pipeline.arrRef spec0) → V7 m c b = V6 m c b :=
  fun b hb => W7_of_ne m c b fun w e => hb (Finset.mem_image.mpr ⟨w, Finset.mem_univ _, e⟩)

def W8 (c : Dev nD) : Valuation τ sig (Elt F) :=
  Pipeline.withArrays spec1 c (W7 m c) fun w => (Node.dat (V7 m) c).arrAt w cfg1.N
theorem W8_arr (c : Dev nD) (w : Fin cfg1.W) :
    W8 m c (Proc.devRef .tc (Pipeline.arrRef spec1 w)) = (Node.dat (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (Node.dat (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

abbrev W9 : Dev nD → Valuation τ sig (Elt F) := fun c => StableHlo.after hostOps2 (W8 m c)

-- The edge call changes one array only, its output window's: an input window's array ends as it was entered.
theorem W7_keep (c : Dev nD) (b : Ref sig .tc) (hb : b ≠ main_v9) : W7 m c (Proc.devRef .tc b) = W6 m c (Proc.devRef .tc b) := by
  by_cases h : ∃ w, Pipeline.arrRef spec0 w = b
  · obtain ⟨w, rfl⟩ := h
    have hw : (cfg0.win w).isOut = false := match w with
      | ⟨0, _⟩ => rfl | ⟨1, _⟩ => rfl | ⟨2, _⟩ => rfl | ⟨3, _⟩ => rfl | ⟨4, _⟩ => rfl | ⟨5, _⟩ => rfl | ⟨6, _⟩ => rfl
      | ⟨7, _⟩ => absurd rfl hb
    exact (W7_arr m c w).trans (((Edge.dat (V6 m) c).arrAt_in w hw _).trans (Edge.A_eq (V6 m) c w))
  · exact W7_of_ne m c b fun w e => h ⟨w, e⟩

-- The same for the node call.
theorem W8_keep (c : Dev nD) (b : Ref sig .tc) (hb : b ≠ main_v10) : W8 m c (Proc.devRef .tc b) = W7 m c (Proc.devRef .tc b) := by
  by_cases h : ∃ w, Pipeline.arrRef spec1 w = b
  · obtain ⟨w, rfl⟩ := h
    have hw : (cfg1.win w).isOut = false := match w with
      | ⟨0, _⟩ => rfl | ⟨1, _⟩ => rfl | ⟨2, _⟩ => rfl | ⟨3, _⟩ => rfl | ⟨4, _⟩ => rfl | ⟨5, _⟩ => rfl | ⟨6, _⟩ => rfl
      | ⟨7, _⟩ => absurd rfl hb
    exact (W8_arr m c w).trans (((Node.dat (V7 m) c).arrAt_in w hw _).trans (Node.A_eq (V7 m) c w))
  · exact W8_of_ne m c b fun w e => h ⟨w, e⟩

theorem W7_arg (c : Dev nD) {r : Ref sig .tc} (hr : r ∈ args) : W7 m c (Proc.devRef .tc r) = m ((c : Thread nD τ).loc r) :=
  (W7_keep m c r ((by decide : ∀ r ∈ args, r ≠ main_v9) r hr)).trans (W6_arg m c hr)

-- No call and no host line writes an argument array: each ends as launched.
theorem W9_arg (c : Dev nD) {r : Ref sig .tc} (hr : r ∈ args) : W9 m c (Proc.devRef .tc r) = m ((c : Thread nD τ).loc r) :=
  (StableHlo.after_of_writes_sub hostOps2 _ hostOps2_writes ((by decide : ∀ r ∈ args, r ∉ hostOps2_W) r hr)).trans <|
    (W8_keep m c r ((by decide : ∀ r ∈ args, r ≠ main_v10) r hr)).trans (W7_arg m c hr)

def pdats : (p : Fin 2) → (c : Dev nD) → Dat τ (Elt F) Unit ℕ (UR sig nD τ) ℕ (Pipeline.pin (pcfgs (F := F)) adm p) c
  | ⟨0, _⟩ => fun c => Edge.dat (V6 m) c
  | ⟨1, _⟩ => fun c => Node.dat (V7 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V6 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (V6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Edge.hin (V6 m) c)
    unfold Pipeline.ΦA
    iintro ⟨Hp, -, Hr⟩
    isplitl [Hr]; · iexact Hr
    iexact Hp
  hout c := by
    rw [Pipeline.ownSems0_none]
    refine BIBase.Entails.trans (Edge.hout (V6 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V6 m c) (V7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Node.hin (V7 m) c)
    unfold Pipeline.ΦA
    iintro ⟨Hp, -, Hr⟩
    isplitl [Hr]; · iexact Hr
    iexact Hp
  hout c := by
    rw [Pipeline.ownSems0_none]
    refine BIBase.Entails.trans (Node.hout (V7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .region (reg0 m),
    .region (reg1 m),
    .host (hseg hostOps2 hostOps2_sub hostOps2_fresh (W8 m)) ]

theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W9 m c) ∗ ∃ r, prngReg c r)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

theorem run_result (ρ : Dev nD → PrngReg) : θ_run defs (onTc (τ := τ) (main (F := F))) ⟨m, fun _ => 0, ρ⟩ (fun r => ∀ c : Dev nD,
      r.2.mem ((c.tc : Thread nD τ).loc main_v11) = W9 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v11 (by decide)),
    (h c _ (mem_uc main_arg0 (by decide))).trans (W9_arg m c (by decide)),
    (h c _ (mem_uc main_arg1 (by decide))).trans (W9_arg m c (by decide)),
    (h c _ (mem_uc main_arg2 (by decide))).trans (W9_arg m c (by decide)),
    (h c _ (mem_uc main_arg3 (by decide))).trans (W9_arg m c (by decide)),
    (h c _ (mem_uc main_arg4 (by decide))).trans (W9_arg m c (by decide)),
    (h c _ (mem_uc main_arg5 (by decide))).trans (W9_arg m c (by decide)),
    (h c _ (mem_uc main_arg6 (by decide))).trans (W9_arg m c (by decide)),
    (h c _ (mem_uc main_arg7 (by decide))).trans (W9_arg m c (by decide)),
    (h c _ (mem_uc main_arg8 (by decide))).trans (W9_arg m c (by decide)),
    (h c _ (mem_uc main_arg9 (by decide))).trans (W9_arg m c (by decide))⟩) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.Kernel.Whole

end
-- ==== Proof.KI_Host.lean ====
import proofs.«410833_j1056561954999_1_alg».proof.Proof.Gen.KernelIdeal.Regions
import Idealize.ShloMosaic.Lib.Pipeline.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)

abbrev V6 : (c : Dev nD) → (b : Ref sig .tc) → Buf (Elt F) ((c : Thread nD τ).loc b) := fun c b => W6 m c b

abbrev args : List (Ref sig .tc) :=
  [main_arg0, main_arg1, main_arg2, main_arg3, main_arg4, main_arg5, main_arg6, main_arg7, main_arg8, main_arg9]

-- No host line before the calls writes an argument array: none is among the references a stretch writes.
theorem W6_arg (c : Dev nD) {r : Ref sig .tc} (hr : r ∈ args) :
    W6 m c (Proc.devRef .tc r) = m ((c : Thread nD τ).loc r) := by
  obtain ⟨h0, h1, h2, h3, h4, h5⟩ := (by decide : ∀ r ∈ args, r ∉ hostOps0_W ∧ r ∉ hostOps0_1_W ∧ r ∉ hostOps0_2_W
    ∧ r ∉ hostOps0_3_W ∧ r ∉ hostOps0_4_W ∧ r ∉ hostOps0_5_W) r hr
  exact (V6_of m c r h5).trans <| (V5_of m c r h4).trans <| (V4_of m c r h3).trans <| (V3_of m c r h2).trans <|
    (V2_of m c r h1).trans (V1_of m c r h0)

end Cert.KernelIdeal.Whole

end
-- ==== Proof.KI_EdgeShared.lean ====
import proofs.«410833_j1056561954999_1_alg».proof.Proof.Gen.KernelIdeal.Launch
import proofs.«410833_j1056561954999_1_alg».proof.Proof.Gen.KernelIdeal.Skeleton
import proofs.«410833_j1056561954999_1_alg».proof.Proof.LibOwns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem coord_inner (t : Fin grid0.N) : (grid0.coords t 1).val = t.val % 49 := by
  show t.val / grid0.stride 1 % grid0.bound 1 = t.val % 49
  rw [show grid0.stride 1 = 1 from by decide, show grid0.bound 1 = 49 from rfl, Nat.div_one]

theorem coord_outer (t : Fin grid0.N) : (grid0.coords t 0).val = t.val / 49 := by
  have h : t.val < 28714 := lt_of_lt_of_eq t.isLt N_0
  show t.val / grid0.stride 0 % grid0.bound 0 = t.val / 49
  rw [show grid0.stride 0 = 49 from by decide, show grid0.bound 0 = 586 from rfl]
  exact Nat.mod_eq_of_lt (by omega)

abbrev condFirst (i : grid0.Coords) : Prop := (Scalar.cmpi .ne (Scalar.extui (Scalar.cmpi .eq (BitVec.ofNat 32 (i 1).val) 0#32)) 0#32) = 1#1
theorem condFirst_iff (i : grid0.Coords) : condFirst i ↔ (i 1).val = 0 :=
  (by decide +kernel : ∀ k : Fin 49, (Scalar.cmpi .ne (Scalar.extui (Scalar.cmpi .eq (BitVec.ofNat 32 k.val) 0#32)) 0#32) = 1#1 ↔ k.val = 0) (i 1)
theorem hcondFirst (t : Fin cfg0.N) : condFirst (grid0.coords t) ↔ t.val % 49 = 0 := by
  rw [condFirst_iff, coord_inner]

abbrev condLast (i : grid0.Coords) : Prop := k0_cond2 i = 1#1
theorem condLast_iff (i : grid0.Coords) : condLast i ↔ (i 1).val = 48 :=
  (by decide +kernel : ∀ k : Fin 49, (Scalar.cmpi .ne (Scalar.extui (Scalar.cmpi .eq (BitVec.ofNat 32 k.val) 48#32)) 0#32) = 1#1 ↔ k.val = 48) (i 1)
theorem hcondLast (t : Fin cfg0.N) : condLast (grid0.coords t) ↔ t.val % 49 = 48 := by
  rw [condLast_iff, coord_inner]

theorem index_7 (t : Fin grid0.N) : win0_7.index t = ![t.val / 49, 0] := by
  have h : t.val < 28714 := lt_of_lt_of_eq t.isLt N_0
  funext a
  match a with
  | ⟨0, _⟩ =>
    show (BitVec.ofNat 32 (grid0.coords t 0).val).toNat = t.val / 49
    rw [coord_outer, BitVec.toNat_ofNat]
    exact Nat.mod_eq_of_lt (by omega)
  | ⟨1, _⟩ => rfl

theorem flush_7_iff (t : Fin cfg0.N) : (cfg0.win 7).flush t = true ↔ t.val % 49 = 48 := by
  have hN : t.val < 28714 := lt_of_lt_of_eq t.isLt (show cfg0.N = 28714 from N_0)
  have hG : grid0.N = 28714 := N_0
  show Pipeline.Window.flush win0_7 t = true ↔ _
  unfold Pipeline.Window.flush
  rw [show win0_7.isOut = true from rfl, Bool.true_and, Bool.or_eq_true, decide_eq_true_eq, decide_eq_true_eq]
  constructor
  · rintro (h | ⟨h, hne⟩)
    · omega
    · have hd : (t.val + 1) / 49 ≠ t.val / 49 := fun e => hne (by rw [index_7, index_7]; show ![(t.val + 1) / 49, 0] = _; rw [e])
      omega
  · intro hL
    by_cases h : t.val + 1 = grid0.N
    · exact Or.inl h
    · refine Or.inr ⟨by omega, fun e => ?_⟩
      rw [index_7, index_7] at e
      have e1 : (t.val + 1) / 49 = t.val / 49 := congrFun e 0
      omega

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl

theorem idle_7 : ∀ t : Fin cfg0.N, ¬condLast (grid0.coords t) → cfg0.idle 7 (grid0.coords t) = true := by
  intro t h
  show (!(k0_cond2 (grid0.coords t) == 1#1)) = true
  simp only [Bool.not_eq_true', beq_eq_false_iff_ne, ne_eq]
  exact h
theorem noFlush_7 : ∀ t : Fin cfg0.N, ¬condLast (grid0.coords t) → (cfg0.win 7).flush t = false :=
  fun t h => Bool.eq_false_iff.mpr fun hf => h ((hcondLast t).mpr ((flush_7_iff t).mp hf))

theorem live_7 : ∀ t : Fin cfg0.N, condLast (grid0.coords t) → cfg0.idle 7 (grid0.coords t) = false := by
  intro t h
  show (!(k0_cond2 (grid0.coords t) == 1#1)) = false
  simp only [Bool.not_eq_false', beq_iff_eq]
  exact h

abbrev VO : View sig .tc .vmem S1024x128 .bf16 := (Memref.whole cc0_stg7_0 : Memref sig .tc .vmem S1024x128 .bf16).view
abbrev ms_0 (t : Fin cfg0.N) : Memref sig .tc .vmem S1x1024 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1024 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1024x128 .bf16 := win0_7.stage (cfg0.slots t 7)
abbrev hs_7 (t : Fin cfg0.N) : (ms_7 t).IsWhole := hstage0_7 ((cfg0.slots t 7).cast nbuf0_7)

abbrev scM_0 : Memref sig .tc .vmem S1024x128 .f32 := Memref.whole cc0_scratch0
abbrev VS_0 : View sig .tc .vmem S1024x128 .f32 := scM_0.view

abbrev scM_1 : Memref sig .tc .vmem S1024x128 .f32 := Memref.whole cc0_scratch1
abbrev VS_1 : View sig .tc .vmem S1024x128 .f32 := scM_1.view

-- What one call of the body takes: every window's memref and the accumulators', each whole.
set_option genInjectivity false in
set_option genSizeOfSpec false in
structure Call where
  arg2 : Memref sig .tc .vmem S1x1024 .i32
  harg2 : arg2.IsWhole
  arg3 : Memref sig .tc .vmem S1x1024 .i32
  harg3 : arg3.IsWhole
  arg4 : Memref sig .tc .vmem S1024x128 .f32
  harg4 : arg4.IsWhole
  arg5 : Memref sig .tc .vmem S128x128 .f32
  harg5 : arg5.IsWhole
  arg6 : Memref sig .tc .vmem S128 .f32
  harg6 : arg6.IsWhole
  arg7 : Memref sig .tc .vmem S128x128 .f32
  harg7 : arg7.IsWhole
  arg8 : Memref sig .tc .vmem S128 .f32
  harg8 : arg8.IsWhole
  arg9 : Memref sig .tc .vmem S1024x128 .bf16
  harg9 : arg9.IsWhole
  arg10 : Memref sig .tc .vmem S1024x128 .f32
  harg10 : arg10.IsWhole
  arg11 : Memref sig .tc .vmem S1024x128 .f32
  harg11 : arg11.IsWhole

-- The input blocks one call of the body loads.
set_option genInjectivity false in
set_option genSizeOfSpec false in
structure Blocks (F : FTy → Type) where
  x0 : Vec F S1x1024 .i32
  x1 : Vec F S1x1024 .i32
  x2 : Vec F S1024x128 .f32
  x3 : Vec F S128x128 .f32
  x4 : Vec F S128 .f32
  x5 : Vec F S128x128 .f32
  x6 : Vec F S128 .f32

abbrev callAt (t : Fin cfg0.N) : Call :=
  ⟨ms_0 t, hs_0 t, ms_1 t, hs_1 t, ms_2 t, hs_2 t, ms_3 t, hs_3 t, ms_4 t, hs_4 t, ms_5 t, hs_5 t, ms_6 t, hs_6 t, ms_7 t, hs_7 t, scM_0, Memref.isWhole_whole _, scM_1, Memref.isWhole_whole _⟩

abbrev blocksAt (c : Dev nD) (t : Fin cfg0.N) : Blocks F :=
  ⟨iblk V c 0 t, iblk V c 1 t, iblk V c 2 t, iblk V c 3 t, iblk V c 4 t, iblk V c 5 t, iblk V c 6 t⟩

abbrev bodyAt (t : Fin cfg0.N) : Prog (TpuEff nD τ sig (Elt F) Λ₀ .tc) PUnit :=
  cc0__edge_kernel_body (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _)

def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_scratch0), ((c : Thread nD τ).loc cc1_scratch0) ↦{fullShare} f))

theorem PhiA_open (c : Dev nD) : (Pipeline.ΦA spec0 c : sProp 𝕄)
    ⊢ iprop(iprop((∃ d, owns (c : Thread nD τ) scM_0 fullShare d) ∗ (∃ d, owns (c : Thread nD τ) scM_1 fullShare d) ∗ others c) ∗ (∃ r, prngReg c r)) := by
  unfold Pipeline.ΦA others; rw [scopedRest0_eq]; simp only [scM_0, scM_1, owns_whole]
  exact .rfl

theorem PhiA_close (c : Dev nD) : iprop(iprop((∃ d, owns (c : Thread nD τ) scM_0 fullShare d) ∗ (∃ d, owns (c : Thread nD τ) scM_1 fullShare d) ∗ others c) ∗ (∃ r, prngReg c r))
    ⊢ (Pipeline.ΦA spec0 c : sProp 𝕄) := by
  unfold Pipeline.ΦA others; rw [scopedRest0_eq]; simp only [scM_0, scM_1, owns_whole]
  exact .rfl

end Cert.KernelIdeal.Edge

end
-- ==== Proof.KI_EdgeRunFirst.lean ====
import proofs.«410833_j1056561954999_1_alg».proof.Proof.KI_EdgeShared

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (a : Call) (hc0 : condFirst i) (hc1 : ¬condLast i)
    (x : Blocks F) :
    Σ' (L7 : List (View.Piece (Elt F) S1024x128 .bf16)), Σ' (LS0 : List (View.Piece (Elt F) S1024x128 .f32)), { LS1 : List (View.Piece (Elt F) S1024x128 .f32) //
      ∀ (xi7 : Vec F S1024x128 .bf16) (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ d, owns (c : Thread nD τ) a.arg10 fullShare d) ∗ (∃ d, owns (c : Thread nD τ) a.arg11 fullShare d)
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ f, a.arg10.view.loc (c : Thread nD τ) ↦[a.arg10.view.set]{fullShare} a.arg10.view.writes (Elt F) f LS0) ∗ (∃ f, a.arg11.view.loc (c : Thread nD τ) ↦[a.arg11.view.set]{fullShare} a.arg11.view.writes (Elt F) f LS1)) -∗ K ⟨⟩))
          ⊢ wp frame (wpE (defs₀ (F := F)) Variants.none c none) E (cc0__edge_kernel_body i a.arg2 a.harg2 a.arg3 a.harg3 a.arg4 a.harg4 a.arg5 a.harg5 a.arg6 a.harg6 a.arg7 a.harg7 a.arg8 a.harg8 a.arg9 a.harg9 a.arg10 a.harg10 a.arg11 a.harg11) K } := by
  refine ⟨[], ?_, ?_, fun xi7 E K => ?run⟩
  case run =>
    simp only [cc0__edge_kernel_body_eq_skeleton]; unfold cc0__edge_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg9]
    unfold owns
    iintro ⟨H0, H1, H2, H3, H4, H5, H6, H7, ⟨%ds0, %fs0, -, HS0⟩, ⟨%ds1, %fs1, -, HS1⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    iexists _; iexact HS1

end Cert.KernelIdeal.Edge

end
-- ==== Proof.KI_EdgeRunMid.lean ====
import proofs.«410833_j1056561954999_1_alg».proof.Proof.KI_EdgeRunFirst

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (a : Call) (hc0 : ¬condFirst i) (hc1 : ¬condLast i)
    (x : Blocks F) (xs0 : Vec F S1024x128 .f32) (xs1 : Vec F S1024x128 .f32) :
    Σ' (L7 : List (View.Piece (Elt F) S1024x128 .bf16)), Σ' (LS0 : List (View.Piece (Elt F) S1024x128 .f32)), { LS1 : List (View.Piece (Elt F) S1024x128 .f32) //
      ∀ (xi7 : Vec F S1024x128 .bf16) (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ owns (c : Thread nD τ) a.arg10 fullShare xs0 ∗ owns (c : Thread nD τ) a.arg11 fullShare xs1
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ f, a.arg10.view.loc (c : Thread nD τ) ↦[a.arg10.view.set]{fullShare} a.arg10.view.writes (Elt F) f LS0) ∗ (∃ f, a.arg11.view.loc (c : Thread nD τ) ↦[a.arg11.view.set]{fullShare} a.arg11.view.writes (Elt F) f LS1)) -∗ K ⟨⟩))
          ⊢ wp frame (wpE (defs₀ (F := F)) Variants.none c none) E (cc0__edge_kernel_body i a.arg2 a.harg2 a.arg3 a.harg3 a.arg4 a.harg4 a.arg5 a.harg5 a.arg6 a.harg6 a.arg7 a.harg7 a.arg8 a.harg8 a.arg9 a.harg9 a.arg10 a.harg10 a.arg11 a.harg11) K } := by
  refine ⟨[], ?_, ?_, fun xi7 E K => ?run⟩
  case run =>
    simp only [cc0__edge_kernel_body_eq_skeleton]; unfold cc0__edge_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg9, owns_eq_unread (c : Thread nD τ) a.harg10, owns_eq_unread (c : Thread nD τ) a.harg11]
    iintro ⟨H0, H1, H2, H3, H4, H5, H6, H7, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    iexists _; iexact HS1

end Cert.KernelIdeal.Edge

end
-- ==== Proof.KI_EdgeRunLast.lean ====
import proofs.«410833_j1056561954999_1_alg».proof.Proof.KI_EdgeRunMid

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (a : Call) (hc0 : ¬condFirst i) (hc1 : condLast i)
    (x : Blocks F) (xs0 : Vec F S1024x128 .f32) (xs1 : Vec F S1024x128 .f32) :
    Σ' (L7 : List (View.Piece (Elt F) S1024x128 .bf16)), Σ' (LS0 : List (View.Piece (Elt F) S1024x128 .f32)), { LS1 : List (View.Piece (Elt F) S1024x128 .f32) //
      ∀ (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ (∃ d, owns (c : Thread nD τ) a.arg9 fullShare d) ∗ owns (c : Thread nD τ) a.arg10 fullShare xs0 ∗ owns (c : Thread nD τ) a.arg11 fullShare xs1
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ (∃ f, a.arg9.view.loc (c : Thread nD τ) ↦[a.arg9.view.set]{fullShare} a.arg9.view.writes (Elt F) f L7) ∗ (∃ f, a.arg10.view.loc (c : Thread nD τ) ↦[a.arg10.view.set]{fullShare} a.arg10.view.writes (Elt F) f LS0) ∗ (∃ f, a.arg11.view.loc (c : Thread nD τ) ↦[a.arg11.view.set]{fullShare} a.arg11.view.writes (Elt F) f LS1)) -∗ K ⟨⟩))
          ⊢ wp frame (wpE (defs₀ (F := F)) Variants.none c none) E (cc0__edge_kernel_body i a.arg2 a.harg2 a.arg3 a.harg3 a.arg4 a.harg4 a.arg5 a.harg5 a.arg6 a.harg6 a.arg7 a.harg7 a.arg8 a.harg8 a.arg9 a.harg9 a.arg10 a.harg10 a.arg11 a.harg11) K } := by
  refine ⟨?_, ?_, ?_, fun E K => ?run⟩
  case run =>
    simp only [cc0__edge_kernel_body_eq_skeleton]; unfold cc0__edge_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg10, owns_eq_unread (c : Thread nD τ) a.harg11]
    unfold owns
    iintro ⟨H0, H1, H2, H3, H4, H5, H6, ⟨%d7, %f7, -, H7⟩, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    iexists _; iexact HS1

end Cert.KernelIdeal.Edge

end
-- ==== Proof.KI_EdgeFrame.lean ====
import proofs.«410833_j1056561954999_1_alg».proof.Proof.KI_EdgeRunLast

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out_First (c : Dev nD) (i : grid0.Coords) (a : Call) (hc0 : condFirst i) (hc1 : ¬condLast i)
    (x : Blocks F) : Vec F S1024x128 .bf16 :=
  VO.read (Elt F) (VO.writes (Elt F) VO.junk (runFirst c i a hc0 hc1 x).1)

theorem scover_First_0 (c : Dev nD) (i : grid0.Coords) (a : Call) (hc0 : condFirst i) (hc1 : ¬condLast i)
    (x : Blocks F) (y : S1024x128.Idx) :
    ∃ pc ∈ (runFirst c i a hc0 hc1 x).2.1, y ∈ pc.1.set :=
  View.cover_of_tiledL (runFirst c i a hc0 hc1 x).2.1 S1024x128.size (by sl_kernel_rfl) y

def sout_First_0 (c : Dev nD) (i : grid0.Coords) (a : Call) (hc0 : condFirst i) (hc1 : ¬condLast i)
    (x : Blocks F) : Vec F S1024x128 .f32 :=
  VS_0.read (Elt F) (VS_0.writes (Elt F) VS_0.junk (runFirst c i a hc0 hc1 x).2.1)

theorem scover_First_1 (c : Dev nD) (i : grid0.Coords) (a : Call) (hc0 : condFirst i) (hc1 : ¬condLast i)
    (x : Blocks F) (y : S1024x128.Idx) :
    ∃ pc ∈ (runFirst c i a hc0 hc1 x).2.2.1, y ∈ pc.1.set :=
  View.cover_of_tiledL (runFirst c i a hc0 hc1 x).2.2.1 S1024x128.size (by sl_kernel_rfl) y

def sout_First_1 (c : Dev nD) (i : grid0.Coords) (a : Call) (hc0 : condFirst i) (hc1 : ¬condLast i)
    (x : Blocks F) : Vec F S1024x128 .f32 :=
  VS_1.read (Elt F) (VS_1.writes (Elt F) VS_1.junk (runFirst c i a hc0 hc1 x).2.2.1)

def out_Mid (c : Dev nD) (i : grid0.Coords) (a : Call) (hc0 : ¬condFirst i) (hc1 : ¬condLast i)
    (x : Blocks F) (xs0 : Vec F S1024x128 .f32) (xs1 : Vec F S1024x128 .f32) : Vec F S1024x128 .bf16 :=
  VO.read (Elt F) (VO.writes (Elt F) VO.junk (runMid c i a hc0 hc1 x xs0 xs1).1)

theorem scover_Mid_0 (c : Dev nD) (i : grid0.Coords) (a : Call) (hc0 : ¬condFirst i) (hc1 : ¬condLast i)
    (x : Blocks F) (xs0 : Vec F S1024x128 .f32) (xs1 : Vec F S1024x128 .f32) (y : S1024x128.Idx) :
    ∃ pc ∈ (runMid c i a hc0 hc1 x xs0 xs1).2.1, y ∈ pc.1.set :=
  View.cover_of_tiledL (runMid c i a hc0 hc1 x xs0 xs1).2.1 S1024x128.size (by sl_kernel_rfl) y

def sout_Mid_0 (c : Dev nD) (i : grid0.Coords) (a : Call) (hc0 : ¬condFirst i) (hc1 : ¬condLast i)
    (x : Blocks F) (xs0 : Vec F S1024x128 .f32) (xs1 : Vec F S1024x128 .f32) : Vec F S1024x128 .f32 :=
  VS_0.read (Elt F) (VS_0.writes (Elt F) VS_0.junk (runMid c i a hc0 hc1 x xs0 xs1).2.1)

theorem scover_Mid_1 (c : Dev nD) (i : grid0.Coords) (a : Call) (hc0 : ¬condFirst i) (hc1 : ¬condLast i)
    (x : Blocks F) (xs0 : Vec F S1024x128 .f32) (xs1 : Vec F S1024x128 .f32) (y : S1024x128.Idx) :
    ∃ pc ∈ (runMid c i a hc0 hc1 x xs0 xs1).2.2.1, y ∈ pc.1.set :=
  View.cover_of_tiledL (runMid c i a hc0 hc1 x xs0 xs1).2.2.1 S1024x128.size (by sl_kernel_rfl) y

def sout_Mid_1 (c : Dev nD) (i : grid0.Coords) (a : Call) (hc0 : ¬condFirst i) (hc1 : ¬condLast i)
    (x : Blocks F) (xs0 : Vec F S1024x128 .f32) (xs1 : Vec F S1024x128 .f32) : Vec F S1024x128 .f32 :=
  VS_1.read (Elt F) (VS_1.writes (Elt F) VS_1.junk (runMid c i a hc0 hc1 x xs0 xs1).2.2.1)

theorem cover_Last (c : Dev nD) (i : grid0.Coords) (a : Call) (hc0 : ¬condFirst i) (hc1 : condLast i)
    (x : Blocks F) (xs0 : Vec F S1024x128 .f32) (xs1 : Vec F S1024x128 .f32) (y : S1024x128.Idx) :
    ∃ pc ∈ (runLast c i a hc0 hc1 x xs0 xs1).1, y ∈ pc.1.set :=
  View.cover_of_tiledL (runLast c i a hc0 hc1 x xs0 xs1).1 S1024x128.size (by sl_kernel_rfl) y

def out_Last (c : Dev nD) (i : grid0.Coords) (a : Call) (hc0 : ¬condFirst i) (hc1 : condLast i)
    (x : Blocks F) (xs0 : Vec F S1024x128 .f32) (xs1 : Vec F S1024x128 .f32) : Vec F S1024x128 .bf16 :=
  VO.read (Elt F) (VO.writes (Elt F) VO.junk (runLast c i a hc0 hc1 x xs0 xs1).1)

theorem scover_Last_0 (c : Dev nD) (i : grid0.Coords) (a : Call) (hc0 : ¬condFirst i) (hc1 : condLast i)
    (x : Blocks F) (xs0 : Vec F S1024x128 .f32) (xs1 : Vec F S1024x128 .f32) (y : S1024x128.Idx) :
    ∃ pc ∈ (runLast c i a hc0 hc1 x xs0 xs1).2.1, y ∈ pc.1.set :=
  View.cover_of_tiledL (runLast c i a hc0 hc1 x xs0 xs1).2.1 S1024x128.size (by sl_kernel_rfl) y

def sout_Last_0 (c : Dev nD) (i : grid0.Coords) (a : Call) (hc0 : ¬condFirst i) (hc1 : condLast i)
    (x : Blocks F) (xs0 : Vec F S1024x128 .f32) (xs1 : Vec F S1024x128 .f32) : Vec F S1024x128 .f32 :=
  VS_0.read (Elt F) (VS_0.writes (Elt F) VS_0.junk (runLast c i a hc0 hc1 x xs0 xs1).2.1)

theorem scover_Last_1 (c : Dev nD) (i : grid0.Coords) (a : Call) (hc0 : ¬condFirst i) (hc1 : condLast i)
    (x : Blocks F) (xs0 : Vec F S1024x128 .f32) (xs1 : Vec F S1024x128 .f32) (y : S1024x128.Idx) :
    ∃ pc ∈ (runLast c i a hc0 hc1 x xs0 xs1).2.2.1, y ∈ pc.1.set :=
  View.cover_of_tiledL (runLast c i a hc0 hc1 x xs0 xs1).2.2.1 S1024x128.size (by sl_kernel_rfl) y

def sout_Last_1 (c : Dev nD) (i : grid0.Coords) (a : Call) (hc0 : ¬condFirst i) (hc1 : condLast i)
    (x : Blocks F) (xs0 : Vec F S1024x128 .f32) (xs1 : Vec F S1024x128 .f32) : Vec F S1024x128 .f32 :=
  VS_1.read (Elt F) (VS_1.writes (Elt F) VS_1.junk (runLast c i a hc0 hc1 x xs0 xs1).2.2.1)

def outsAt (c : Dev nD) : (n : ℕ) → n < cfg0.N → Vec F S1024x128 .bf16 × Vec F S1024x128 .f32 × Vec F S1024x128 .f32
  | 0, hn => (out_First c (grid0.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩),
        sout_First_0 c (grid0.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩),
        sout_First_1 c (grid0.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩))
  | n + 1, hn =>
    if h0 : (n + 1) % 49 = 0 then
      if h1 : (n + 1) % 49 = 48 then
        False.elim (by omega)
      else
        (out_First c (grid0.coords ⟨n + 1, hn⟩) (callAt ⟨n + 1, hn⟩) ((hcondFirst ⟨n + 1, hn⟩).mpr h0) (fun h => h1 ((hcondLast ⟨n + 1, hn⟩).mp h)) (blocksAt V c ⟨n + 1, hn⟩),
        sout_First_0 c (grid0.coords ⟨n + 1, hn⟩) (callAt ⟨n + 1, hn⟩) ((hcondFirst ⟨n + 1, hn⟩).mpr h0) (fun h => h1 ((hcondLast ⟨n + 1, hn⟩).mp h)) (blocksAt V c ⟨n + 1, hn⟩),
        sout_First_1 c (grid0.coords ⟨n + 1, hn⟩) (callAt ⟨n + 1, hn⟩) ((hcondFirst ⟨n + 1, hn⟩).mpr h0) (fun h => h1 ((hcondLast ⟨n + 1, hn⟩).mp h)) (blocksAt V c ⟨n + 1, hn⟩))
    else
      if h1 : (n + 1) % 49 = 48 then
        (out_Last c (grid0.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2.1 (outsAt c n (Nat.lt_of_succ_lt hn)).2.2,
        sout_Last_0 c (grid0.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2.1 (outsAt c n (Nat.lt_of_succ_lt hn)).2.2,
        sout_Last_1 c (grid0.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2.1 (outsAt c n (Nat.lt_of_succ_lt hn)).2.2)
      else
        (out_Mid c (grid0.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2.1 (outsAt c n (Nat.lt_of_succ_lt hn)).2.2,
        sout_Mid_0 c (grid0.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2.1 (outsAt c n (Nat.lt_of_succ_lt hn)).2.2,
        sout_Mid_1 c (grid0.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2.1 (outsAt c n (Nat.lt_of_succ_lt hn)).2.2)

theorem outsAt_First (c : Dev nD) (t : Fin cfg0.N) (h0 : t.val % 49 = 0) (h1 : ¬t.val % 49 = 48) :
    outsAt V c t.val t.isLt = (out_First c (grid0.coords t) (callAt t) ((hcondFirst t).mpr h0) (fun h => h1 ((hcondLast t).mp h)) (blocksAt V c t),
        sout_First_0 c (grid0.coords t) (callAt t) ((hcondFirst t).mpr h0) (fun h => h1 ((hcondLast t).mp h)) (blocksAt V c t),
        sout_First_1 c (grid0.coords t) (callAt t) ((hcondFirst t).mpr h0) (fun h => h1 ((hcondLast t).mp h)) (blocksAt V c t)) := by
  obtain ⟨n, hn⟩ := t
  cases n with
  | zero => exact rfl
  | succ n => exact (dif_pos h0).trans ((dif_neg h1).trans rfl)

theorem outsAt_Mid (c : Dev nD) (t : Fin cfg0.N) (h0 : ¬t.val % 49 = 0) (h1 : ¬t.val % 49 = 48) :
    outsAt V c t.val t.isLt = (out_Mid c (grid0.coords t) (callAt t) (fun h => h0 ((hcondFirst t).mp h)) (fun h => h1 ((hcondLast t).mp h)) (blocksAt V c t) (outsAt V c (t.val - 1) (Nat.lt_of_le_of_lt (Nat.sub_le _ _) t.isLt)).2.1 (outsAt V c (t.val - 1) (Nat.lt_of_le_of_lt (Nat.sub_le _ _) t.isLt)).2.2,
        sout_Mid_0 c (grid0.coords t) (callAt t) (fun h => h0 ((hcondFirst t).mp h)) (fun h => h1 ((hcondLast t).mp h)) (blocksAt V c t) (outsAt V c (t.val - 1) (Nat.lt_of_le_of_lt (Nat.sub_le _ _) t.isLt)).2.1 (outsAt V c (t.val - 1) (Nat.lt_of_le_of_lt (Nat.sub_le _ _) t.isLt)).2.2,
        sout_Mid_1 c (grid0.coords t) (callAt t) (fun h => h0 ((hcondFirst t).mp h)) (fun h => h1 ((hcondLast t).mp h)) (blocksAt V c t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg0.N) (h0 : ¬t.val % 49 = 0) (h1 : t.val % 49 = 48) :
    outsAt V c t.val t.isLt = (out_Last c (grid0.coords t) (callAt t) (fun h => h0 ((hcondFirst t).mp h)) ((hcondLast t).mpr h1) (blocksAt V c t) (outsAt V c (t.val - 1) (Nat.lt_of_le_of_lt (Nat.sub_le _ _) t.isLt)).2.1 (outsAt V c (t.val - 1) (Nat.lt_of_le_of_lt (Nat.sub_le _ _) t.isLt)).2.2,
        sout_Last_0 c (grid0.coords t) (callAt t) (fun h => h0 ((hcondFirst t).mp h)) ((hcondLast t).mpr h1) (blocksAt V c t) (outsAt V c (t.val - 1) (Nat.lt_of_le_of_lt (Nat.sub_le _ _) t.isLt)).2.1 (outsAt V c (t.val - 1) (Nat.lt_of_le_of_lt (Nat.sub_le _ _) t.isLt)).2.2,
        sout_Last_1 c (grid0.coords t) (callAt t) (fun h => h0 ((hcondFirst t).mp h)) ((hcondLast t).mpr h1) (blocksAt V c t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM_0 fullShare ((outsAt V c n hn).2.1) ∗ owns (c : Thread nD τ) scM_1 fullShare ((outsAt V c n hn).2.2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM_0 fullShare ((outsAt V c n hn).2.1) ∗ owns (c : Thread nD τ) scM_1 fullShare ((outsAt V c n hn).2.2) ∗ others c) ∗ (∃ r, prngReg c r)) := rfl

theorem PhiS_pos (c : Dev nD) (n : ℕ) (h : n ≤ cfg0.N) (hz : n ≠ 0) :
    PhiS V c n h = iprop(iprop(owns (c : Thread nD τ) scM_0 fullShare ((outsAt V c (n - 1) (by omega)).2.1) ∗ owns (c : Thread nD τ) scM_1 fullShare ((outsAt V c (n - 1) (by omega)).2.2) ∗ others c) ∗ (∃ r, prngReg c r)) := by
  cases n with
  | zero => exact absurd rfl hz
  | succ n => rfl

-- Whatever the point, the invariant holds the accumulators at some contents.
theorem PhiS_any (c : Dev nD) (n : ℕ) (h : n ≤ cfg0.N) : PhiS V c n h
    ⊢ iprop(iprop((∃ d, owns (c : Thread nD τ) scM_0 fullShare d) ∗ (∃ d, owns (c : Thread nD τ) scM_1 fullShare d) ∗ others c) ∗ (∃ r, prngReg c r)) := by
  cases n with
  | zero => exact PhiA_open c
  | succ n =>
    rw [PhiS_succ]
    iintro ⟨⟨HS0, HS1, Hoth⟩, Hg⟩
    isplitr [Hg]
    ·
      isplitl [HS0]; · iexists _; iexact HS0
      isplitl [HS1]; · iexists _; iexact HS1
      iexact Hoth
    iexact Hg

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg0.N) :
    bodyPre V c t ⊢ wp frame (wpE (defs₀ (F := F)) Variants.none c none) Set.univ (bodyAt t) (fun _ => bodyPost V c t) := by
  unfold bodyPre bodyPost bodyAt
  simp only [before_0, before_1, before_2, before_3, before_4, before_5, before_6]
  rw [show (dat V c).owesAt () t.succ = (dat V c).owesAt () t.castSucc from rfl]
  rw [show (dat V c).Φ t.succ = PhiS V c (t.val + 1) t.isLt from rfl, PhiS_succ]
  have hN : t.val < 28714 := lt_of_lt_of_eq t.isLt (show cfg0.N = 28714 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  rw [show (dat V c).leavesExact 4 t = owns (c : Thread nD τ) (ms_4 t) fullShare ((dat V c).after 4 t) from by
    unfold Dat.leavesExact; rw [live_4 t], after_4]
  rw [show (dat V c).leavesExact 5 t = owns (c : Thread nD τ) (ms_5 t) fullShare ((dat V c).after 5 t) from by
    unfold Dat.leavesExact; rw [live_5 t], after_5]
  rw [show (dat V c).leavesExact 6 t = owns (c : Thread nD τ) (ms_6 t) fullShare ((dat V c).after 6 t) from by
    unfold Dat.leavesExact; rw [live_6 t], after_6]
  by_cases h0 : t.val % 49 = 0
  · have h1 : ¬t.val % 49 = 48 := by omega
    rw [Dat.leavesExact_idle (dat V c) 7 t (idle_7 t (fun h => h1 ((hcondLast t).mp h))) (noFlush_7 t (fun h => h1 ((hcondLast t).mp h)))]
    rw [outsAt_First V c t h0 h1]
    unfold sout_First_0 sout_First_1; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS_any V c _ _) $$ HΦ
    icases HΦ' with ⟨⟨HS0, HS1, Hoth⟩, Hg⟩
    iapply ((runFirst c (grid0.coords t) (callAt t) ((hcondFirst t).mpr h0) (fun h => h1 ((hcondLast t).mp h)) (blocksAt V c t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hoth Hg]
    · isplitl [HS0 HS1 Hoth]
      ·
        isplitl [HS0]
        · iapply (owns_of_writes _ _ _ _ (scover_First_0 c _ _ _ _ _) es0 _ _); iexact HS0
        isplitl [HS1]
        · iapply (owns_of_writes _ _ _ _ (scover_First_1 c _ _ _ _ _) es1 _ _); iexact HS1
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun hz => h0 (by rw [hz])
    by_cases h1 : t.val % 49 = 48
    · rw [show (dat V c).leavesExact 7 t = owns (c : Thread nD τ) (ms_7 t) fullShare ((dat V c).after 7 t) from by
        unfold Dat.leavesExact; rw [live_7 t ((hcondLast t).mpr h1)], after_7]
      rw [outsAt_Last V c t h0 h1]
      unfold out_Last sout_Last_0 sout_Last_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (callAt t) (fun h => h0 ((hcondFirst t).mp h)) ((hcondLast t).mpr h1) (blocksAt V c t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hoth Hg]
      · isplitl [HS0 HS1 Hoth]
        ·
          isplitl [HS0]
          · iapply (owns_of_writes _ _ _ _ (scover_Last_0 c _ _ _ _ _ _ _) es0 _ _); iexact HS0
          isplitl [HS1]
          · iapply (owns_of_writes _ _ _ _ (scover_Last_1 c _ _ _ _ _ _ _) es1 _ _); iexact HS1
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (owns_of_writes _ _ _ _ (cover_Last c _ _ _ _ _ _ _) e7 _ _); iexact H7
    · rw [Dat.leavesExact_idle (dat V c) 7 t (idle_7 t (fun h => h1 ((hcondLast t).mp h))) (noFlush_7 t (fun h => h1 ((hcondLast t).mp h)))]
      rw [outsAt_Mid V c t h0 h1]
      unfold sout_Mid_0 sout_Mid_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) (callAt t) (fun h => h0 ((hcondFirst t).mp h)) (fun h => h1 ((hcondLast t).mp h)) (blocksAt V c t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hoth Hg]
      · isplitl [HS0 HS1 Hoth]
        ·
          isplitl [HS0]
          · iapply (owns_of_writes _ _ _ _ (scover_Mid_0 c _ _ _ _ _ _ _) es0 _ _); iexact HS0
          isplitl [HS1]
          · iapply (owns_of_writes _ _ _ _ (scover_Mid_1 c _ _ _ _ _ _ _) es1 _ _); iexact HS1
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) : (dat V c).Φ t ⊢ Pipeline.ΦA spec0 c := by
  rw [show (dat V c).Φ t = PhiS V c t.val (Nat.le_of_lt_succ t.isLt) from rfl]
  exact (PhiS_any V c _ _).trans (PhiA_close c)

theorem hout (c : Dev nD) : (dat V c).Φ (Fin.last cfg0.N) ⊢ Pipeline.ΦA spec0 c := Phi_out V c _

end Cert.KernelIdeal.Edge

end
-- ==== Proof.KI_NodeShared.lean ====
import proofs.«410833_j1056561954999_1_alg».proof.Proof.Gen.KernelIdeal.Launch
import proofs.«410833_j1056561954999_1_alg».proof.Proof.Gen.KernelIdeal.Skeleton
import proofs.«410833_j1056561954999_1_alg».proof.Proof.LibOwns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem coord_inner (t : Fin grid1.N) : (grid1.coords t 1).val = t.val % 586 := by
  show t.val / grid1.stride 1 % grid1.bound 1 = t.val % 586
  rw [show grid1.stride 1 = 1 from by decide, show grid1.bound 1 = 586 from rfl, Nat.div_one]

theorem coord_outer (t : Fin grid1.N) : (grid1.coords t 0).val = t.val / 586 := by
  have h : t.val < 28714 := lt_of_lt_of_eq t.isLt N_1
  show t.val / grid1.stride 0 % grid1.bound 0 = t.val / 586
  rw [show grid1.stride 0 = 586 from by decide, show grid1.bound 0 = 49 from rfl]
  exact Nat.mod_eq_of_lt (by omega)

abbrev condFirst (i : grid1.Coords) : Prop := (Scalar.cmpi .ne (Scalar.extui (Scalar.cmpi .eq (BitVec.ofNat 32 (i 1).val) 0#32)) 0#32) = 1#1
theorem condFirst_iff (i : grid1.Coords) : condFirst i ↔ (i 1).val = 0 :=
  (by decide +kernel : ∀ k : Fin 586, (Scalar.cmpi .ne (Scalar.extui (Scalar.cmpi .eq (BitVec.ofNat 32 k.val) 0#32)) 0#32) = 1#1 ↔ k.val = 0) (i 1)
theorem hcondFirst (t : Fin cfg1.N) : condFirst (grid1.coords t) ↔ t.val % 586 = 0 := by
  rw [condFirst_iff, coord_inner]

abbrev condLast (i : grid1.Coords) : Prop := k1_cond2 i = 1#1
theorem condLast_iff (i : grid1.Coords) : condLast i ↔ (i 1).val = 585 :=
  (by decide +kernel : ∀ k : Fin 586, (Scalar.cmpi .ne (Scalar.extui (Scalar.cmpi .eq (BitVec.ofNat 32 k.val) 585#32)) 0#32) = 1#1 ↔ k.val = 585) (i 1)
theorem hcondLast (t : Fin cfg1.N) : condLast (grid1.coords t) ↔ t.val % 586 = 585 := by
  rw [condLast_iff, coord_inner]

theorem index_7 (t : Fin grid1.N) : win1_7.index t = ![t.val / 586, 0] := by
  have h : t.val < 28714 := lt_of_lt_of_eq t.isLt N_1
  funext a
  match a with
  | ⟨0, _⟩ =>
    show (BitVec.ofNat 32 (grid1.coords t 0).val).toNat = t.val / 586
    rw [coord_outer, BitVec.toNat_ofNat]
    exact Nat.mod_eq_of_lt (by omega)
  | ⟨1, _⟩ => rfl

theorem flush_7_iff (t : Fin cfg1.N) : (cfg1.win 7).flush t = true ↔ t.val % 586 = 585 := by
  have hN : t.val < 28714 := lt_of_lt_of_eq t.isLt (show cfg1.N = 28714 from N_1)
  have hG : grid1.N = 28714 := N_1
  show Pipeline.Window.flush win1_7 t = true ↔ _
  unfold Pipeline.Window.flush
  rw [show win1_7.isOut = true from rfl, Bool.true_and, Bool.or_eq_true, decide_eq_true_eq, decide_eq_true_eq]
  constructor
  · rintro (h | ⟨h, hne⟩)
    · omega
    · have hd : (t.val + 1) / 586 ≠ t.val / 586 := fun e => hne (by rw [index_7, index_7]; show ![(t.val + 1) / 586, 0] = _; rw [e])
      omega
  · intro hL
    by_cases h : t.val + 1 = grid1.N
    · exact Or.inl h
    · refine Or.inr ⟨by omega, fun e => ?_⟩
      rw [index_7, index_7] at e
      have e1 : (t.val + 1) / 586 = t.val / 586 := congrFun e 0
      omega

theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cfg1.idle 3 (grid1.coords t) = false := fun _ => rfl
theorem live_4 : ∀ t : Fin cfg1.N, cfg1.idle 4 (grid1.coords t) = false := fun _ => rfl
theorem live_5 : ∀ t : Fin cfg1.N, cfg1.idle 5 (grid1.coords t) = false := fun _ => rfl
theorem live_6 : ∀ t : Fin cfg1.N, cfg1.idle 6 (grid1.coords t) = false := fun _ => rfl

theorem idle_7 : ∀ t : Fin cfg1.N, ¬condLast (grid1.coords t) → cfg1.idle 7 (grid1.coords t) = true := by
  intro t h
  show (!(k1_cond2 (grid1.coords t) == 1#1)) = true
  simp only [Bool.not_eq_true', beq_eq_false_iff_ne, ne_eq]
  exact h
theorem noFlush_7 : ∀ t : Fin cfg1.N, ¬condLast (grid1.coords t) → (cfg1.win 7).flush t = false :=
  fun t h => Bool.eq_false_iff.mpr fun hf => h ((hcondLast t).mpr ((flush_7_iff t).mp hf))

theorem live_7 : ∀ t : Fin cfg1.N, condLast (grid1.coords t) → cfg1.idle 7 (grid1.coords t) = false := by
  intro t h
  show (!(k1_cond2 (grid1.coords t) == 1#1)) = false
  simp only [Bool.not_eq_false', beq_iff_eq]
  exact h

abbrev VO : View sig .tc .vmem S1024x128 .f32 := (Memref.whole cc1_stg7_0 : Memref sig .tc .vmem S1024x128 .f32).view
abbrev ms_0 (t : Fin cfg1.N) : Memref sig .tc .vmem S1x1024 .i32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S256x128 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S128 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S128x128 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S128 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1024x128 .f32 := win1_7.stage (cfg1.slots t 7)
abbrev hs_7 (t : Fin cfg1.N) : (ms_7 t).IsWhole := hstage1_7 ((cfg1.slots t 7).cast nbuf1_7)

abbrev scM_0 : Memref sig .tc .vmem S1024x128 .f32 := Memref.whole cc1_scratch0
abbrev VS_0 : View sig .tc .vmem S1024x128 .f32 := scM_0.view

-- What one call of the body takes: every window's memref and the accumulators', each whole.
set_option genInjectivity false in
set_option genSizeOfSpec false in
structure Call where
  arg2 : Memref sig .tc .vmem S1x1024 .i32
  harg2 : arg2.IsWhole
  arg3 : Memref sig .tc .vmem S1024x128 .bf16
  harg3 : arg3.IsWhole
  arg4 : Memref sig .tc .vmem S1024x128 .f32
  harg4 : arg4.IsWhole
  arg5 : Memref sig .tc .vmem S256x128 .f32
  harg5 : arg5.IsWhole
  arg6 : Memref sig .tc .vmem S128 .f32
  harg6 : arg6.IsWhole
  arg7 : Memref sig .tc .vmem S128x128 .f32
  harg7 : arg7.IsWhole
  arg8 : Memref sig .tc .vmem S128 .f32
  harg8 : arg8.IsWhole
  arg9 : Memref sig .tc .vmem S1024x128 .f32
  harg9 : arg9.IsWhole
  arg10 : Memref sig .tc .vmem S1024x128 .f32
  harg10 : arg10.IsWhole

-- The input blocks one call of the body loads.
set_option genInjectivity false in
set_option genSizeOfSpec false in
structure Blocks (F : FTy → Type) where
  x0 : Vec F S1x1024 .i32
  x1 : Vec F S1024x128 .bf16
  x2 : Vec F S1024x128 .f32
  x3 : Vec F S256x128 .f32
  x4 : Vec F S128 .f32
  x5 : Vec F S128x128 .f32
  x6 : Vec F S128 .f32

abbrev callAt (t : Fin cfg1.N) : Call :=
  ⟨ms_0 t, hs_0 t, ms_1 t, hs_1 t, ms_2 t, hs_2 t, ms_3 t, hs_3 t, ms_4 t, hs_4 t, ms_5 t, hs_5 t, ms_6 t, hs_6 t, ms_7 t, hs_7 t, scM_0, Memref.isWhole_whole _⟩

abbrev blocksAt (c : Dev nD) (t : Fin cfg1.N) : Blocks F :=
  ⟨iblk V c 0 t, iblk V c 1 t, iblk V c 2 t, iblk V c 3 t, iblk V c 4 t, iblk V c 5 t, iblk V c 6 t⟩

abbrev bodyAt (t : Fin cfg1.N) : Prog (TpuEff nD τ sig (Elt F) Λ₀ .tc) PUnit :=
  cc1__node_kernel_body (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _)

def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

theorem PhiA_open (c : Dev nD) : (Pipeline.ΦA spec1 c : sProp 𝕄)
    ⊢ iprop(iprop((∃ d, owns (c : Thread nD τ) scM_0 fullShare d) ∗ others c) ∗ (∃ r, prngReg c r)) := by
  unfold Pipeline.ΦA others; rw [scopedRest1_eq]; simp only [scM_0, owns_whole]
  iintro ⟨⟨H0, H1, H2, H3, H4, H5, H6, H7, H8, H9, H10, H11, H12, H13, HS0⟩, Hg⟩
  isplitr [Hg]
  ·
    isplitl [HS0]; · iexact HS0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

theorem PhiA_close (c : Dev nD) : iprop(iprop((∃ d, owns (c : Thread nD τ) scM_0 fullShare d) ∗ others c) ∗ (∃ r, prngReg c r))
    ⊢ (Pipeline.ΦA spec1 c : sProp 𝕄) := by
  unfold Pipeline.ΦA others; rw [scopedRest1_eq]; simp only [scM_0, owns_whole]
  iintro ⟨⟨HS0, H0, H1, H2, H3, H4, H5, H6, H7, H8, H9, H10, H11, H12, H13⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS0
  iexact Hg

end Cert.KernelIdeal.Node

end
-- ==== Proof.KI_NodeRunFirst.lean ====
import proofs.«410833_j1056561954999_1_alg».proof.Proof.KI_NodeShared

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (a : Call) (hc0 : condFirst i) (hc1 : ¬condLast i)
    (x : Blocks F) :
    Σ' (L7 : List (View.Piece (Elt F) S1024x128 .f32)), { LS0 : List (View.Piece (Elt F) S1024x128 .f32) //
      ∀ (xi7 : Vec F S1024x128 .f32) (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ d, owns (c : Thread nD τ) a.arg10 fullShare d)
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ f, a.arg10.view.loc (c : Thread nD τ) ↦[a.arg10.view.set]{fullShare} a.arg10.view.writes (Elt F) f LS0)) -∗ K ⟨⟩))
          ⊢ wp frame (wpE (defs₀ (F := F)) Variants.none c none) E (cc1__node_kernel_body i a.arg2 a.harg2 a.arg3 a.harg3 a.arg4 a.harg4 a.arg5 a.harg5 a.arg6 a.harg6 a.arg7 a.harg7 a.arg8 a.harg8 a.arg9 a.harg9 a.arg10 a.harg10) K } := by
  refine ⟨[], ?_, fun xi7 E K => ?run⟩
  case run =>
    simp only [cc1__node_kernel_body_eq_skeleton]; unfold cc1__node_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg9]
    unfold owns
    iintro ⟨H0, H1, H2, H3, H4, H5, H6, H7, ⟨%ds0, %fs0, -, HS0⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS0

end Cert.KernelIdeal.Node

end
-- ==== Proof.KI_NodeRunMid.lean ====
import proofs.«410833_j1056561954999_1_alg».proof.Proof.KI_NodeRunFirst

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (a : Call) (hc0 : ¬condFirst i) (hc1 : ¬condLast i)
    (x : Blocks F) (xs0 : Vec F S1024x128 .f32) :
    Σ' (L7 : List (View.Piece (Elt F) S1024x128 .f32)), { LS0 : List (View.Piece (Elt F) S1024x128 .f32) //
      ∀ (xi7 : Vec F S1024x128 .f32) (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ owns (c : Thread nD τ) a.arg10 fullShare xs0
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ owns (c : Thread nD τ) a.arg9 fullShare xi7 ∗ (∃ f, a.arg10.view.loc (c : Thread nD τ) ↦[a.arg10.view.set]{fullShare} a.arg10.view.writes (Elt F) f LS0)) -∗ K ⟨⟩))
          ⊢ wp frame (wpE (defs₀ (F := F)) Variants.none c none) E (cc1__node_kernel_body i a.arg2 a.harg2 a.arg3 a.harg3 a.arg4 a.harg4 a.arg5 a.harg5 a.arg6 a.harg6 a.arg7 a.harg7 a.arg8 a.harg8 a.arg9 a.harg9 a.arg10 a.harg10) K } := by
  refine ⟨[], ?_, fun xi7 E K => ?run⟩
  case run =>
    simp only [cc1__node_kernel_body_eq_skeleton]; unfold cc1__node_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg9, owns_eq_unread (c : Thread nD τ) a.harg10]
    iintro ⟨H0, H1, H2, H3, H4, H5, H6, H7, HS0, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS0

end Cert.KernelIdeal.Node

end
-- ==== Proof.KI_NodeRunLast.lean ====
import proofs.«410833_j1056561954999_1_alg».proof.Proof.KI_NodeRunMid

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (a : Call) (hc0 : ¬condFirst i) (hc1 : condLast i)
    (x : Blocks F) (xs0 : Vec F S1024x128 .f32) :
    Σ' (L7 : List (View.Piece (Elt F) S1024x128 .f32)), { LS0 : List (View.Piece (Elt F) S1024x128 .f32) //
      ∀ (E : Set ℕ) (K : PUnit → sProp 𝕄),
        iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ (∃ d, owns (c : Thread nD τ) a.arg9 fullShare d) ∗ owns (c : Thread nD τ) a.arg10 fullShare xs0
            ∗ (iprop(owns (c : Thread nD τ) a.arg2 fullShare x.x0 ∗ owns (c : Thread nD τ) a.arg3 fullShare x.x1 ∗ owns (c : Thread nD τ) a.arg4 fullShare x.x2 ∗ owns (c : Thread nD τ) a.arg5 fullShare x.x3 ∗ owns (c : Thread nD τ) a.arg6 fullShare x.x4 ∗ owns (c : Thread nD τ) a.arg7 fullShare x.x5 ∗ owns (c : Thread nD τ) a.arg8 fullShare x.x6 ∗ (∃ f, a.arg9.view.loc (c : Thread nD τ) ↦[a.arg9.view.set]{fullShare} a.arg9.view.writes (Elt F) f L7) ∗ (∃ f, a.arg10.view.loc (c : Thread nD τ) ↦[a.arg10.view.set]{fullShare} a.arg10.view.writes (Elt F) f LS0)) -∗ K ⟨⟩))
          ⊢ wp frame (wpE (defs₀ (F := F)) Variants.none c none) E (cc1__node_kernel_body i a.arg2 a.harg2 a.arg3 a.harg3 a.arg4 a.harg4 a.arg5 a.harg5 a.arg6 a.harg6 a.arg7 a.harg7 a.arg8 a.harg8 a.arg9 a.harg9 a.arg10 a.harg10) K } := by
  refine ⟨?_, ?_, fun E K => ?run⟩
  case run =>
    simp only [cc1__node_kernel_body_eq_skeleton]; unfold cc1__node_kernel_body_skel
    rw [owns_eq_unread (c : Thread nD τ) a.harg2, owns_eq_unread (c : Thread nD τ) a.harg3, owns_eq_unread (c : Thread nD τ) a.harg4, owns_eq_unread (c : Thread nD τ) a.harg5, owns_eq_unread (c : Thread nD τ) a.harg6, owns_eq_unread (c : Thread nD τ) a.harg7, owns_eq_unread (c : Thread nD τ) a.harg8, owns_eq_unread (c : Thread nD τ) a.harg10]
    unfold owns
    iintro ⟨H0, H1, H2, H3, H4, H5, H6, ⟨%d7, %f7, -, H7⟩, HS0, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact HS0

end Cert.KernelIdeal.Node

end
-- ==== Proof.KI_NodeFrame.lean ====
import proofs.«410833_j1056561954999_1_alg».proof.Proof.KI_NodeRunLast

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out_First (c : Dev nD) (i : grid1.Coords) (a : Call) (hc0 : condFirst i) (hc1 : ¬condLast i)
    (x : Blocks F) : Vec F S1024x128 .f32 :=
  VO.read (Elt F) (VO.writes (Elt F) VO.junk (runFirst c i a hc0 hc1 x).1)

theorem scover_First_0 (c : Dev nD) (i : grid1.Coords) (a : Call) (hc0 : condFirst i) (hc1 : ¬condLast i)
    (x : Blocks F) (y : S1024x128.Idx) :
    ∃ pc ∈ (runFirst c i a hc0 hc1 x).2.1, y ∈ pc.1.set :=
  View.cover_of_tiledL (runFirst c i a hc0 hc1 x).2.1 S1024x128.size (by sl_kernel_rfl) y

def sout_First_0 (c : Dev nD) (i : grid1.Coords) (a : Call) (hc0 : condFirst i) (hc1 : ¬condLast i)
    (x : Blocks F) : Vec F S1024x128 .f32 :=
  VS_0.read (Elt F) (VS_0.writes (Elt F) VS_0.junk (runFirst c i a hc0 hc1 x).2.1)

def out_Mid (c : Dev nD) (i : grid1.Coords) (a : Call) (hc0 : ¬condFirst i) (hc1 : ¬condLast i)
    (x : Blocks F) (xs0 : Vec F S1024x128 .f32) : Vec F S1024x128 .f32 :=
  VO.read (Elt F) (VO.writes (Elt F) VO.junk (runMid c i a hc0 hc1 x xs0).1)

theorem scover_Mid_0 (c : Dev nD) (i : grid1.Coords) (a : Call) (hc0 : ¬condFirst i) (hc1 : ¬condLast i)
    (x : Blocks F) (xs0 : Vec F S1024x128 .f32) (y : S1024x128.Idx) :
    ∃ pc ∈ (runMid c i a hc0 hc1 x xs0).2.1, y ∈ pc.1.set :=
  View.cover_of_tiledL (runMid c i a hc0 hc1 x xs0).2.1 S1024x128.size (by sl_kernel_rfl) y

def sout_Mid_0 (c : Dev nD) (i : grid1.Coords) (a : Call) (hc0 : ¬condFirst i) (hc1 : ¬condLast i)
    (x : Blocks F) (xs0 : Vec F S1024x128 .f32) : Vec F S1024x128 .f32 :=
  VS_0.read (Elt F) (VS_0.writes (Elt F) VS_0.junk (runMid c i a hc0 hc1 x xs0).2.1)

theorem cover_Last (c : Dev nD) (i : grid1.Coords) (a : Call) (hc0 : ¬condFirst i) (hc1 : condLast i)
    (x : Blocks F) (xs0 : Vec F S1024x128 .f32) (y : S1024x128.Idx) :
    ∃ pc ∈ (runLast c i a hc0 hc1 x xs0).1, y ∈ pc.1.set :=
  View.cover_of_tiledL (runLast c i a hc0 hc1 x xs0).1 S1024x128.size (by sl_kernel_rfl) y

def out_Last (c : Dev nD) (i : grid1.Coords) (a : Call) (hc0 : ¬condFirst i) (hc1 : condLast i)
    (x : Blocks F) (xs0 : Vec F S1024x128 .f32) : Vec F S1024x128 .f32 :=
  VO.read (Elt F) (VO.writes (Elt F) VO.junk (runLast c i a hc0 hc1 x xs0).1)

theorem scover_Last_0 (c : Dev nD) (i : grid1.Coords) (a : Call) (hc0 : ¬condFirst i) (hc1 : condLast i)
    (x : Blocks F) (xs0 : Vec F S1024x128 .f32) (y : S1024x128.Idx) :
    ∃ pc ∈ (runLast c i a hc0 hc1 x xs0).2.1, y ∈ pc.1.set :=
  View.cover_of_tiledL (runLast c i a hc0 hc1 x xs0).2.1 S1024x128.size (by sl_kernel_rfl) y

def sout_Last_0 (c : Dev nD) (i : grid1.Coords) (a : Call) (hc0 : ¬condFirst i) (hc1 : condLast i)
    (x : Blocks F) (xs0 : Vec F S1024x128 .f32) : Vec F S1024x128 .f32 :=
  VS_0.read (Elt F) (VS_0.writes (Elt F) VS_0.junk (runLast c i a hc0 hc1 x xs0).2.1)

def outsAt (c : Dev nD) : (n : ℕ) → n < cfg1.N → Vec F S1024x128 .f32 × Vec F S1024x128 .f32
  | 0, hn => (out_First c (grid1.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩),
        sout_First_0 c (grid1.coords ⟨0, hn⟩) (callAt ⟨0, hn⟩) ((hcondFirst ⟨0, hn⟩).mpr (Nat.zero_mod _)) (fun h => (fun h => by (try dsimp only at h); omega) ((hcondLast ⟨0, hn⟩).mp h)) (blocksAt V c ⟨0, hn⟩))
  | n + 1, hn =>
    if h0 : (n + 1) % 586 = 0 then
      if h1 : (n + 1) % 586 = 585 then
        False.elim (by omega)
      else
        (out_First c (grid1.coords ⟨n + 1, hn⟩) (callAt ⟨n + 1, hn⟩) ((hcondFirst ⟨n + 1, hn⟩).mpr h0) (fun h => h1 ((hcondLast ⟨n + 1, hn⟩).mp h)) (blocksAt V c ⟨n + 1, hn⟩),
        sout_First_0 c (grid1.coords ⟨n + 1, hn⟩) (callAt ⟨n + 1, hn⟩) ((hcondFirst ⟨n + 1, hn⟩).mpr h0) (fun h => h1 ((hcondLast ⟨n + 1, hn⟩).mp h)) (blocksAt V c ⟨n + 1, hn⟩))
    else
      if h1 : (n + 1) % 586 = 585 then
        (out_Last c (grid1.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2,
        sout_Last_0 c (grid1.coords ⟨n + 1, hn⟩) (callAt ⟨n + 1, hn⟩) (fun h => h0 ((hcondFirst ⟨n + 1, hn⟩).mp h)) ((hcondLast ⟨n + 1, hn⟩).mpr h1) (blocksAt V c ⟨n + 1, hn⟩) (outsAt c n (Nat.lt_of_succ_lt hn)).2)
      else
        (out_Mid c (grid1.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2,
        sout_Mid_0 c (grid1.coords ⟨n + 1, hn⟩) (callAt ⟨n + 1, hn⟩) (fun h => h0 ((hcondFirst ⟨n + 1, hn⟩).mp h)) (fun h => h1 ((hcondLast ⟨n + 1, hn⟩).mp h)) (blocksAt V c ⟨n + 1, hn⟩) (outsAt c n (Nat.lt_of_succ_lt hn)).2)

theorem outsAt_First (c : Dev nD) (t : Fin cfg1.N) (h0 : t.val % 586 = 0) (h1 : ¬t.val % 586 = 585) :
    outsAt V c t.val t.isLt = (out_First c (grid1.coords t) (callAt t) ((hcondFirst t).mpr h0) (fun h => h1 ((hcondLast t).mp h)) (blocksAt V c t),
        sout_First_0 c (grid1.coords t) (callAt t) ((hcondFirst t).mpr h0) (fun h => h1 ((hcondLast t).mp h)) (blocksAt V c t)) := by
  obtain ⟨n, hn⟩ := t
  cases n with
  | zero => exact rfl
  | succ n => exact (dif_pos h0).trans ((dif_neg h1).trans rfl)

theorem outsAt_Mid (c : Dev nD) (t : Fin cfg1.N) (h0 : ¬t.val % 586 = 0) (h1 : ¬t.val % 586 = 585) :
    outsAt V c t.val t.isLt = (out_Mid c (grid1.coords t) (callAt t) (fun h => h0 ((hcondFirst t).mp h)) (fun h => h1 ((hcondLast t).mp h)) (blocksAt V c t) (outsAt V c (t.val - 1) (Nat.lt_of_le_of_lt (Nat.sub_le _ _) t.isLt)).2,
        sout_Mid_0 c (grid1.coords t) (callAt t) (fun h => h0 ((hcondFirst t).mp h)) (fun h => h1 ((hcondLast t).mp h)) (blocksAt V c t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg1.N) (h0 : ¬t.val % 586 = 0) (h1 : t.val % 586 = 585) :
    outsAt V c t.val t.isLt = (out_Last c (grid1.coords t) (callAt t) (fun h => h0 ((hcondFirst t).mp h)) ((hcondLast t).mpr h1) (blocksAt V c t) (outsAt V c (t.val - 1) (Nat.lt_of_le_of_lt (Nat.sub_le _ _) t.isLt)).2,
        sout_Last_0 c (grid1.coords t) (callAt t) (fun h => h0 ((hcondFirst t).mp h)) ((hcondLast t).mpr h1) (blocksAt V c t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scM_0 fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM_0 fullShare ((outsAt V c n hn).2) ∗ others c) ∗ (∃ r, prngReg c r)) := rfl

theorem PhiS_pos (c : Dev nD) (n : ℕ) (h : n ≤ cfg1.N) (hz : n ≠ 0) :
    PhiS V c n h = iprop(iprop(owns (c : Thread nD τ) scM_0 fullShare ((outsAt V c (n - 1) (by omega)).2) ∗ others c) ∗ (∃ r, prngReg c r)) := by
  cases n with
  | zero => exact absurd rfl hz
  | succ n => rfl

-- Whatever the point, the invariant holds the accumulators at some contents.
theorem PhiS_any (c : Dev nD) (n : ℕ) (h : n ≤ cfg1.N) : PhiS V c n h
    ⊢ iprop(iprop((∃ d, owns (c : Thread nD τ) scM_0 fullShare d) ∗ others c) ∗ (∃ r, prngReg c r)) := by
  cases n with
  | zero => exact PhiA_open c
  | succ n =>
    rw [PhiS_succ]
    iintro ⟨⟨HS0, Hoth⟩, Hg⟩
    isplitr [Hg]
    ·
      isplitl [HS0]; · iexists _; iexact HS0
      iexact Hoth
    iexact Hg

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg1.N) :
    bodyPre V c t ⊢ wp frame (wpE (defs₀ (F := F)) Variants.none c none) Set.univ (bodyAt t) (fun _ => bodyPost V c t) := by
  unfold bodyPre bodyPost bodyAt
  simp only [before_0, before_1, before_2, before_3, before_4, before_5, before_6]
  rw [show (dat V c).owesAt () t.succ = (dat V c).owesAt () t.castSucc from rfl]
  rw [show (dat V c).Φ t.succ = PhiS V c (t.val + 1) t.isLt from rfl, PhiS_succ]
  have hN : t.val < 28714 := lt_of_lt_of_eq t.isLt (show cfg1.N = 28714 from N_1)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  rw [show (dat V c).leavesExact 4 t = owns (c : Thread nD τ) (ms_4 t) fullShare ((dat V c).after 4 t) from by
    unfold Dat.leavesExact; rw [live_4 t], after_4]
  rw [show (dat V c).leavesExact 5 t = owns (c : Thread nD τ) (ms_5 t) fullShare ((dat V c).after 5 t) from by
    unfold Dat.leavesExact; rw [live_5 t], after_5]
  rw [show (dat V c).leavesExact 6 t = owns (c : Thread nD τ) (ms_6 t) fullShare ((dat V c).after 6 t) from by
    unfold Dat.leavesExact; rw [live_6 t], after_6]
  by_cases h0 : t.val % 586 = 0
  · have h1 : ¬t.val % 586 = 585 := by omega
    rw [Dat.leavesExact_idle (dat V c) 7 t (idle_7 t (fun h => h1 ((hcondLast t).mp h))) (noFlush_7 t (fun h => h1 ((hcondLast t).mp h)))]
    rw [outsAt_First V c t h0 h1]
    unfold sout_First_0; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS_any V c _ _) $$ HΦ
    icases HΦ' with ⟨⟨HS0, Hoth⟩, Hg⟩
    iapply ((runFirst c (grid1.coords t) (callAt t) ((hcondFirst t).mpr h0) (fun h => h1 ((hcondLast t).mp h)) (blocksAt V c t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 Hoth Hg]
    · isplitl [HS0 Hoth]
      ·
        isplitl [HS0]
        · iapply (owns_of_writes _ _ _ _ (scover_First_0 c _ _ _ _ _) es0 _ _); iexact HS0
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun hz => h0 (by rw [hz])
    by_cases h1 : t.val % 586 = 585
    · rw [show (dat V c).leavesExact 7 t = owns (c : Thread nD τ) (ms_7 t) fullShare ((dat V c).after 7 t) from by
        unfold Dat.leavesExact; rw [live_7 t ((hcondLast t).mpr h1)], after_7]
      rw [outsAt_Last V c t h0 h1]
      unfold out_Last sout_Last_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) (callAt t) (fun h => h0 ((hcondFirst t).mp h)) ((hcondLast t).mpr h1) (blocksAt V c t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hoth Hg]
      · isplitl [HS0 Hoth]
        ·
          isplitl [HS0]
          · iapply (owns_of_writes _ _ _ _ (scover_Last_0 c _ _ _ _ _ _) es0 _ _); iexact HS0
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (owns_of_writes _ _ _ _ (cover_Last c _ _ _ _ _ _) e7 _ _); iexact H7
    · rw [Dat.leavesExact_idle (dat V c) 7 t (idle_7 t (fun h => h1 ((hcondLast t).mp h))) (noFlush_7 t (fun h => h1 ((hcondLast t).mp h)))]
      rw [outsAt_Mid V c t h0 h1]
      unfold sout_Mid_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) (callAt t) (fun h => h0 ((hcondFirst t).mp h)) (fun h => h1 ((hcondLast t).mp h)) (blocksAt V c t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        ·
          isplitl [HS0]
          · iapply (owns_of_writes _ _ _ _ (scover_Mid_0 c _ _ _ _ _ _) es0 _ _); iexact HS0
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) : (dat V c).Φ t ⊢ Pipeline.ΦA spec1 c := by
  rw [show (dat V c).Φ t = PhiS V c t.val (Nat.le_of_lt_succ t.isLt) from rfl]
  exact (PhiS_any V c _ _).trans (PhiA_close c)

theorem hout (c : Dev nD) : (dat V c).Φ (Fin.last cfg1.N) ⊢ Pipeline.ΦA spec1 c := Phi_out V c _

end Cert.KernelIdeal.Node

end
-- ==== Proof.KI_Assemble.lean ====
import proofs.«410833_j1056561954999_1_alg».proof.Proof.KI_Host
import proofs.«410833_j1056561954999_1_alg».proof.Proof.KI_EdgeFrame
import proofs.«410833_j1056561954999_1_alg».proof.Proof.KI_NodeFrame
import Idealize.ShloMosaic.Lib.Pipeline.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def W7 (c : Dev nD) : Valuation τ sig (Elt F) :=
  Pipeline.withArrays spec0 c (W6 m c) fun w => (Edge.dat (V6 m) c).arrAt w cfg0.N
theorem W7_arr (c : Dev nD) (w : Fin cfg0.W) :
    W7 m c (Proc.devRef .tc (Pipeline.arrRef spec0 w)) = (Edge.dat (V6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb

abbrev V7 : (c : Dev nD) → (b : Ref sig .tc) → Buf (Elt F) ((c : Thread nD τ).loc b) := fun c b => W7 m c b
theorem hF0 (c : Dev nD) (w : Fin cfg0.W) : (Edge.dat (V6 m) c).arrAt w cfg0.N = V7 m c (Pipeline.arrRef spec0 w) :=
  (W7_arr m c w).symm
theorem hrest0 (c : Dev nD) : ∀ b, b ∉ Finset.univ.image (Pipeline.arrRef spec0) → V7 m c b = V6 m c b :=
  fun b hb => W7_of_ne m c b fun w e => hb (Finset.mem_image.mpr ⟨w, Finset.mem_univ _, e⟩)

def W8 (c : Dev nD) : Valuation τ sig (Elt F) :=
  Pipeline.withArrays spec1 c (W7 m c) fun w => (Node.dat (V7 m) c).arrAt w cfg1.N
theorem W8_arr (c : Dev nD) (w : Fin cfg1.W) :
    W8 m c (Proc.devRef .tc (Pipeline.arrRef spec1 w)) = (Node.dat (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (Node.dat (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)

abbrev W9 : Dev nD → Valuation τ sig (Elt F) := fun c => StableHlo.after hostOps2 (W8 m c)

-- The edge call changes one array only, its output window's: an input window's array ends as it was entered.
theorem W7_keep (c : Dev nD) (b : Ref sig .tc) (hb : b ≠ main_v9) : W7 m c (Proc.devRef .tc b) = W6 m c (Proc.devRef .tc b) := by
  by_cases h : ∃ w, Pipeline.arrRef spec0 w = b
  · obtain ⟨w, rfl⟩ := h
    have hw : (cfg0.win w).isOut = false := match w with
      | ⟨0, _⟩ => rfl | ⟨1, _⟩ => rfl | ⟨2, _⟩ => rfl | ⟨3, _⟩ => rfl | ⟨4, _⟩ => rfl | ⟨5, _⟩ => rfl | ⟨6, _⟩ => rfl
      | ⟨7, _⟩ => absurd rfl hb
    exact (W7_arr m c w).trans (((Edge.dat (V6 m) c).arrAt_in w hw _).trans (Edge.A_eq (V6 m) c w))
  · exact W7_of_ne m c b fun w e => h ⟨w, e⟩

-- The same for the node call.
theorem W8_keep (c : Dev nD) (b : Ref sig .tc) (hb : b ≠ main_v10) : W8 m c (Proc.devRef .tc b) = W7 m c (Proc.devRef .tc b) := by
  by_cases h : ∃ w, Pipeline.arrRef spec1 w = b
  · obtain ⟨w, rfl⟩ := h
    have hw : (cfg1.win w).isOut = false := match w with
      | ⟨0, _⟩ => rfl | ⟨1, _⟩ => rfl | ⟨2, _⟩ => rfl | ⟨3, _⟩ => rfl | ⟨4, _⟩ => rfl | ⟨5, _⟩ => rfl | ⟨6, _⟩ => rfl
      | ⟨7, _⟩ => absurd rfl hb
    exact (W8_arr m c w).trans (((Node.dat (V7 m) c).arrAt_in w hw _).trans (Node.A_eq (V7 m) c w))
  · exact W8_of_ne m c b fun w e => h ⟨w, e⟩

theorem W7_arg (c : Dev nD) {r : Ref sig .tc} (hr : r ∈ args) : W7 m c (Proc.devRef .tc r) = m ((c : Thread nD τ).loc r) :=
  (W7_keep m c r ((by decide : ∀ r ∈ args, r ≠ main_v9) r hr)).trans (W6_arg m c hr)

-- No call and no host line writes an argument array: each ends as launched.
theorem W9_arg (c : Dev nD) {r : Ref sig .tc} (hr : r ∈ args) : W9 m c (Proc.devRef .tc r) = m ((c : Thread nD τ).loc r) :=
  (StableHlo.after_of_writes_sub hostOps2 _ hostOps2_writes ((by decide : ∀ r ∈ args, r ∉ hostOps2_W) r hr)).trans <|
    (W8_keep m c r ((by decide : ∀ r ∈ args, r ≠ main_v10) r hr)).trans (W7_arg m c hr)

def pdats : (p : Fin 2) → (c : Dev nD) → Dat τ (Elt F) Unit ℕ (UR sig nD τ) ℕ (Pipeline.pin (pcfgs (F := F)) adm p) c
  | ⟨0, _⟩ => fun c => Edge.dat (V6 m) c
  | ⟨1, _⟩ => fun c => Node.dat (V7 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V6 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (V6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Edge.hin (V6 m) c)
    unfold Pipeline.ΦA
    iintro ⟨Hp, -, Hr⟩
    isplitl [Hr]; · iexact Hr
    iexact Hp
  hout c := by
    rw [Pipeline.ownSems0_none]
    refine BIBase.Entails.trans (Edge.hout (V6 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V6 m c) (V7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Node.hin (V7 m) c)
    unfold Pipeline.ΦA
    iintro ⟨Hp, -, Hr⟩
    isplitl [Hr]; · iexact Hr
    iexact Hp
  hout c := by
    rw [Pipeline.ownSems0_none]
    refine BIBase.Entails.trans (Node.hout (V7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .region (reg0 m),
    .region (reg1 m),
    .host (hseg hostOps2 hostOps2_sub hostOps2_fresh (W8 m)) ]

theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W9 m c) ∗ ∃ r, prngReg c r)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

theorem run_result (ρ : Dev nD → PrngReg) : θ_run defs (onTc (τ := τ) (main (F := F))) ⟨m, fun _ => 0, ρ⟩ (fun r => ∀ c : Dev nD,
      r.2.mem ((c.tc : Thread nD τ).loc main_v11) = W9 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v11 (by decide)),
    (h c _ (mem_uc main_arg0 (by decide))).trans (W9_arg m c (by decide)),
    (h c _ (mem_uc main_arg1 (by decide))).trans (W9_arg m c (by decide)),
    (h c _ (mem_uc main_arg2 (by decide))).trans (W9_arg m c (by decide)),
    (h c _ (mem_uc main_arg3 (by decide))).trans (W9_arg m c (by decide)),
    (h c _ (mem_uc main_arg4 (by decide))).trans (W9_arg m c (by decide)),
    (h c _ (mem_uc main_arg5 (by decide))).trans (W9_arg m c (by decide)),
    (h c _ (mem_uc main_arg6 (by decide))).trans (W9_arg m c (by decide)),
    (h c _ (mem_uc main_arg7 (by decide))).trans (W9_arg m c (by decide)),
    (h c _ (mem_uc main_arg8 (by decide))).trans (W9_arg m c (by decide)),
    (h c _ (mem_uc main_arg9 (by decide))).trans (W9_arg m c (by decide))⟩) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.KernelIdeal.Whole

end
-- ==== Proof.HostValue.lean ====
import proofs.«410833_j1056561954999_1_alg».proof.Proof.KI_Host
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option Elab.async false

noncomputable section

namespace Cert.KernelIdeal.Whole

open Cert.KernelIdeal Cert.KernelIdeal.Gen
open Idealize.ShloMosaic Idealize.ShloMosaic.TcCoe Idealize.ShloMosaic.ValueIdx Idealize.SL.Sem

theorem rowPad_apply (M : S2x600000.Idx → BitVec 32) (w : BitVec 32) (o : Nat) (r : Fin 2) (hr : r.val = o)
    (hs : S2x600000.Slices ![o, 0] S1x600000) (e : Fin 600064) :
    shapeCast S1x600064 (pad (s := S600000) S600064 ![0] ![64] ![0]
        (shapeCast S600000 (extractStridedSlice (s := S2x600000) S1x600000 ![o, 0] M hs) shapeCasts_S1x600000_S600000)
        (constantI S_ 32 w) pads_S600000_S600064_0640 h_S_) shapeCasts_S600064_S1x600064 (ix2 (0 : Fin 1) e)
      = if h : e.val < 600000 then M (ix2 r ⟨e.val, h⟩) else w := by
  refine (shapeCast_a_1a_apply _ _ (0 : Fin 1) e).trans ?_
  by_cases h : e.val < 600000
  · rw [dif_pos h]
    refine (pad_apply_of_inside _ _ _ _ _ pads_S600000_S600064_0640 h_S_ (ix1 e) (ix1 (⟨e.val, h⟩ : Fin 600000)) (by
      intro a
      have ha : a = 0 := Subsingleton.elim _ _
      subst ha
      show e.val = 0 + e.val * (0 + 1); omega)).trans ?_
    refine (shapeCast_1a_a_apply _ _ (⟨e.val, h⟩ : Fin 600000)).trans ?_
    exact slice2_axis0_apply o M hs (0 : Fin 1) (⟨e.val, h⟩ : Fin 600000) r (by show r.val = o + 0; omega)
  · rw [dif_neg h]
    exact pad_apply_of_not_inside _ _ _ _ _ pads_S600000_S600064_0640 h_S_ (ix1 e) (0 : Fin 1) (by
      intro hin
      have h3 : (e.val - 0) / (0 + 1) < 600000 := hin.2.2
      exact h (by omega))

theorem tablePad_apply {α : Type} (X : S50000x128.Idx → α) (v : S_.Idx → α) (n : Fin 50176) (j : Fin 128) :
    pad (s := S50000x128) S50176x128 ![0, 0] ![176, 0] ![0, 0] X v pads_S50000x128_S50176x128_01760_000 h_S_ (ix2 n j)
      = if h : n.val < 50000 then X (ix2 ⟨n.val, h⟩ j) else v ix0 := by
  by_cases h : n.val < 50000
  · rw [dif_pos h]
    exact pad_apply_of_inside _ _ _ X v pads_S50000x128_S50176x128_01760_000 h_S_ (ix2 n j) (ix2 (⟨n.val, h⟩ : Fin 50000) j)
      (fun a => match a with
        | ⟨0, _⟩ => by show n.val = 0 + n.val * (0 + 1); omega
        | ⟨1, _⟩ => by show j.val = 0 + j.val * (0 + 1); omega)
  · rw [dif_neg h]
    refine (pad_apply_of_not_inside _ _ _ X v pads_S50000x128_S50176x128_01760_000 h_S_ (ix2 n j) (0 : Fin 2) (by
      intro hin
      have h3 : (n.val - 0) / (0 + 1) < 50000 := hin.2.2
      exact h (by omega))).trans (congrArg v (eq_ix0 _))

variable (m : (ℓ : Loc nD τ sig) → Buf (Elt Ideal) ℓ)

local macro "unwritten" : tactic => `(tactic| (
  refine List.forall_iff_forall_mem.mp ?_
  simp only [hostOps0, hostOps0_1, hostOps0_2, hostOps0_3, hostOps0_4, hostOps0_5, List.Forall,
    StableHlo.nullary_writes, StableHlo.unary_writes, StableHlo.binary_writes, StableHlo.reshape_writes,
    StableHlo.TRef.unary, StableHlo.TRef.binary, Finset.mem_singleton]
  repeat' apply And.intro
  all_goals exact StableHlo.devRef_ne_of_ne (by decide)))

theorem W5_of_unwritten (c : Dev nD) (r : Ref sig .tc)
    (h0 : ∀ op ∈ (hostOps0 : List (HloOp τ sig (Elt Ideal))), Proc.devRef (τ := τ) .tc r ∉ op.writes)
    (h1 : ∀ op ∈ (hostOps0_1 : List (HloOp τ sig (Elt Ideal))), Proc.devRef (τ := τ) .tc r ∉ op.writes)
    (h2 : ∀ op ∈ (hostOps0_2 : List (HloOp τ sig (Elt Ideal))), Proc.devRef (τ := τ) .tc r ∉ op.writes)
    (h3 : ∀ op ∈ (hostOps0_3 : List (HloOp τ sig (Elt Ideal))), Proc.devRef (τ := τ) .tc r ∉ op.writes)
    (h4 : ∀ op ∈ (hostOps0_4 : List (HloOp τ sig (Elt Ideal))), Proc.devRef (τ := τ) .tc r ∉ op.writes) :
    W5 m c (Proc.devRef .tc r) = m ((c : Thread nD τ).loc r) :=
  calc W5 m c (Proc.devRef .tc r)
    _ = W4 m c (Proc.devRef .tc r) := StableHlo.after_of_forall_not_mem (b := Proc.devRef .tc r) _ _ h4
    _ = W3 m c (Proc.devRef .tc r) := StableHlo.after_of_forall_not_mem (b := Proc.devRef .tc r) _ _ h3
    _ = W2 m c (Proc.devRef .tc r) := StableHlo.after_of_forall_not_mem (b := Proc.devRef .tc r) _ _ h2
    _ = W1 m c (Proc.devRef .tc r) := StableHlo.after_of_forall_not_mem (b := Proc.devRef .tc r) _ _ h1
    _ = W0 m c (Proc.devRef .tc r) := StableHlo.after_of_forall_not_mem (b := Proc.devRef .tc r) _ _ h0
    _ = m ((c : Thread nD τ).loc r) := rfl

theorem W1_main_v1 (c : Dev nD) :
    (W1 m c (Proc.devRef .tc main_v1) : S600000.Idx → BitVec 32)
      = shapeCast S600000 (extractStridedSlice (s := S2x600000) S1x600000 ![0, 0]
          (m ((c : Thread nD τ).loc main_arg1) : S2x600000.Idx → BitVec 32) slices_S2x600000_S1x600000_0_0) shapeCasts_S1x600000_S600000 := by
  show StableHlo.after hostOps0 (W0 m c) (Proc.devRef .tc main_v1) = _
  simp only [hostOps0]
  after_results
  rfl

theorem W1_main_v3 (c : Dev nD) :
    (W1 m c (Proc.devRef .tc main_v3) : S600000.Idx → BitVec 32)
      = shapeCast S600000 (extractStridedSlice (s := S2x600000) S1x600000 ![1, 0]
          (m ((c : Thread nD τ).loc main_arg1) : S2x600000.Idx → BitVec 32) slices_S2x600000_S1x600000_1_0) shapeCasts_S1x600000_S600000 := by
  show StableHlo.after hostOps0 (W0 m c) (Proc.devRef .tc main_v3) = _
  simp only [hostOps0]
  after_results
  rfl

theorem W1_main_c (c : Dev nD) : (W1 m c (Proc.devRef .tc main_c) : S_.Idx → BitVec 32) = constantI S_ 32 50176#32 := by
  show StableHlo.after hostOps0 (W0 m c) (Proc.devRef .tc main_c) = _
  simp only [hostOps0]
  after_results

theorem W2_main_v4 (c : Dev nD) :
    (W2 m c (Proc.devRef .tc main_v4) : S600064.Idx → BitVec 32)
      = pad (s := S600000) S600064 ![0] ![64] ![0] (W1 m c (Proc.devRef .tc main_v1) : S600000.Idx → BitVec 32)
          (W1 m c (Proc.devRef .tc main_c) : S_.Idx → BitVec 32) pads_S600000_S600064_0640 h_S_ := by
  show StableHlo.after hostOps0_1 (W1 m c) (Proc.devRef .tc main_v4) = _
  simp only [hostOps0_1]
  after_results
  rfl

theorem W3_main_v5 (c : Dev nD) :
    (W3 m c (Proc.devRef .tc main_v5) : S1x600064.Idx → BitVec 32)
      = shapeCast S1x600064 (W2 m c (Proc.devRef .tc main_v4) : S600064.Idx → BitVec 32) shapeCasts_S600064_S1x600064 := by
  show StableHlo.after hostOps0_2 (W2 m c) (Proc.devRef .tc main_v5) = _
  simp only [hostOps0_2]
  after_results
  rfl

theorem W3_main_c_0 (c : Dev nD) : (W3 m c (Proc.devRef .tc main_c_0) : S_.Idx → BitVec 32) = constantI S_ 32 50176#32 := by
  show StableHlo.after hostOps0_2 (W2 m c) (Proc.devRef .tc main_c_0) = _
  simp only [hostOps0_2]
  after_results

theorem W3_main_v3 (c : Dev nD) :
    (W3 m c (Proc.devRef .tc main_v3) : S600000.Idx → BitVec 32)
      = shapeCast S600000 (extractStridedSlice (s := S2x600000) S1x600000 ![1, 0]
          (m ((c : Thread nD τ).loc main_arg1) : S2x600000.Idx → BitVec 32) slices_S2x600000_S1x600000_1_0) shapeCasts_S1x600000_S600000 :=
  calc (W3 m c (Proc.devRef .tc main_v3) : S600000.Idx → BitVec 32)
    _ = W2 m c (Proc.devRef .tc main_v3) := StableHlo.after_of_forall_not_mem (b := Proc.devRef .tc main_v3) _ _ (by unwritten)
    _ = W1 m c (Proc.devRef .tc main_v3) := StableHlo.after_of_forall_not_mem (b := Proc.devRef .tc main_v3) _ _ (by unwritten)
    _ = _ := W1_main_v3 m c

theorem W4_main_v6 (c : Dev nD) :
    (W4 m c (Proc.devRef .tc main_v6) : S600064.Idx → BitVec 32)
      = pad (s := S600000) S600064 ![0] ![64] ![0] (W3 m c (Proc.devRef .tc main_v3) : S600000.Idx → BitVec 32)
          (W3 m c (Proc.devRef .tc main_c_0) : S_.Idx → BitVec 32) pads_S600000_S600064_0640 h_S_ := by
  show StableHlo.after hostOps0_3 (W3 m c) (Proc.devRef .tc main_v6) = _
  simp only [hostOps0_3]
  after_results
  rfl

theorem W5_main_v7 (c : Dev nD) :
    (W5 m c (Proc.devRef .tc main_v7) : S1x600064.Idx → BitVec 32)
      = shapeCast S1x600064 (W4 m c (Proc.devRef .tc main_v6) : S600064.Idx → BitVec 32) shapeCasts_S600064_S1x600064 := by
  show StableHlo.after hostOps0_4 (W4 m c) (Proc.devRef .tc main_v7) = _
  simp only [hostOps0_4]
  after_results
  rfl

theorem W5_main_c_1 (c : Dev nD) : (W5 m c (Proc.devRef .tc main_c_1) : S_.Idx → BitVec 32) = constantI S_ 32 0#32 := by
  show StableHlo.after hostOps0_4 (W4 m c) (Proc.devRef .tc main_c_1) = _
  simp only [hostOps0_4]
  after_results

theorem V6_main_v8 (c : Dev nD) :
    (V6 m c main_v8 : S50176x128.Idx → EReal)
      = pad (s := S50000x128) S50176x128 ![0, 0] ![176, 0] ![0, 0] (W5 m c (Proc.devRef .tc main_arg0) : S50000x128.Idx → EReal)
          (sitofp (F := Ideal) .f32 (W5 m c (Proc.devRef .tc main_c_1) : S_.Idx → BitVec 32)) pads_S50000x128_S50176x128_01760_000 h_S_ := by
  show StableHlo.after hostOps0_5 (W5 m c) (Proc.devRef .tc main_v8) = _
  simp only [hostOps0_5]
  after_results
  rfl

theorem V6_main_v5 (c : Dev nD) :
    (V6 m c main_v5 : S1x600064.Idx → BitVec 32)
      = shapeCast S1x600064 (W2 m c (Proc.devRef .tc main_v4) : S600064.Idx → BitVec 32) shapeCasts_S600064_S1x600064 :=
  calc (V6 m c main_v5 : S1x600064.Idx → BitVec 32)
    _ = W5 m c (Proc.devRef .tc main_v5) := StableHlo.after_of_forall_not_mem (b := Proc.devRef .tc main_v5) _ _ (by unwritten)
    _ = W4 m c (Proc.devRef .tc main_v5) := StableHlo.after_of_forall_not_mem (b := Proc.devRef .tc main_v5) _ _ (by unwritten)
    _ = W3 m c (Proc.devRef .tc main_v5) := StableHlo.after_of_forall_not_mem (b := Proc.devRef .tc main_v5) _ _ (by unwritten)
    _ = _ := W3_main_v5 m c

theorem V6_main_v7 (c : Dev nD) :
    (V6 m c main_v7 : S1x600064.Idx → BitVec 32)
      = shapeCast S1x600064 (W4 m c (Proc.devRef .tc main_v6) : S600064.Idx → BitVec 32) shapeCasts_S600064_S1x600064 :=
  calc (V6 m c main_v7 : S1x600064.Idx → BitVec 32)
    _ = W5 m c (Proc.devRef .tc main_v7) := StableHlo.after_of_forall_not_mem (b := Proc.devRef .tc main_v7) _ _ (by unwritten)
    _ = _ := W5_main_v7 m c

theorem srcPad_apply (c : Dev nD) (e : Fin 600064) :
    (V6 m c main_v5 : S1x600064.Idx → BitVec 32) (ix2 (0 : Fin 1) e)
      = if h : e.val < 600000 then (m ((c : Thread nD τ).loc main_arg1) : S2x600000.Idx → BitVec 32) (ix2 (0 : Fin 2) ⟨e.val, h⟩) else 50176#32 := by
  rw [V6_main_v5, W2_main_v4, W1_main_v1, W1_main_c]
  exact rowPad_apply _ 50176#32 0 0 rfl slices_S2x600000_S1x600000_0_0 e

theorem dstPad_apply (c : Dev nD) (e : Fin 600064) :
    (V6 m c main_v7 : S1x600064.Idx → BitVec 32) (ix2 (0 : Fin 1) e)
      = if h : e.val < 600000 then (m ((c : Thread nD τ).loc main_arg1) : S2x600000.Idx → BitVec 32) (ix2 (1 : Fin 2) ⟨e.val, h⟩) else 50176#32 := by
  rw [V6_main_v7, W4_main_v6, W3_main_v3, W3_main_c_0]
  exact rowPad_apply _ 50176#32 1 1 rfl slices_S2x600000_S1x600000_1_0 e

theorem nodePad_apply (c : Dev nD) (n : Fin 50176) (j : Fin 128) :
    (V6 m c main_v8 : S50176x128.Idx → EReal) (ix2 n j)
      = if h : n.val < 50000 then (m ((c : Thread nD τ).loc main_arg0) : S50000x128.Idx → EReal) (ix2 ⟨n.val, h⟩ j) else (0 : EReal) := by
  rw [V6_main_v8, W5_of_unwritten m c main_arg0 (by unwritten) (by unwritten) (by unwritten) (by unwritten) (by unwritten),
    W5_main_c_1, tablePad_apply]
  by_cases h : n.val < 50000
  · rw [dif_pos h, dif_pos h]
  · rw [dif_neg h, dif_neg h]

    show ((((0#32 : BitVec 32).toInt : ℤ) : ℝ) : EReal) = 0
    simp

end Cert.KernelIdeal.Whole

end
-- ==== Proof.EdgePayload.lean ====
import proofs.«410833_j1056561954999_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgeValue

open Cert.KernelIdeal Cert.KernelIdeal.Gen
open Idealize.ShloMosaic Idealize.ShloMosaic.ValueIdx

theorem onehot_word (x y : BitVec 32) {d : Decidable (x = y)} :
    (FloatOps.sitofp (F := Ideal) .f32 ((IntOp.cmpi .eq x y).setWidth 32) : Ideal .f32) = @ite EReal (x = y) d 1 0 := by
  show ((((IntOp.cmpi .eq x y).setWidth 32).toInt : ℝ) : EReal) = _
  by_cases h : x = y
  · rw [if_pos h]
    subst h
    have hc : IntOp.cmpi .eq x x = 1#1 := by simp [IntOp.cmpi]
    rw [hc]
    have h1 : ((1#1 : BitVec 1).setWidth 32).toInt = 1 := by decide
    rw [h1, Int.cast_one, EReal.coe_one]
  · rw [if_neg h]
    have hc : IntOp.cmpi .eq x y = 0#1 := by
      show BitVec.ofBool (x == y) = 0#1
      rw [beq_eq_false_iff_ne.mpr h]; rfl
    rw [hc]
    have h0 : ((0#1 : BitVec 1).setWidth 32).toInt = 0 := by decide
    rw [h0, Int.cast_zero, EReal.coe_zero]

theorem entry_eq {s : Shape} (u v : IVec s 32) (h1 : 1 < 32) (hb : FTy.bits .bf16 < FTy.bits .f32) (i : s.Idx)
    (x y : BitVec 32) (hu : u i = x) (hv : v i = y) {d : Decidable (x = y)} :
    (truncf .bf16 (sitofp (F := Ideal) .f32 (extui 32 (cmpi .eq u v) h1)) hb : FVec Ideal s .bf16) i
      = @ite EReal (x = y) d 1 0 := by
  subst hu hv
  exact onehot_word (u i) (v i)

theorem srow_apply {α : Type} (s : S1x1024.Idx → α) (h h' : S1x1024.ShapeCasts S1x1024) (hB : S1x1024.Broadcasts S1024x1024)
    (n e : Fin 1024) :
    broadcastTo S1024x1024 (shapeCast S1x1024 (shapeCast S1x1024 s h) h') hB (ix2 n e) = s (ix2 (0 : Fin 1) e) := by
  rw [shapeCast_self, shapeCast_self]
  exact broadcastTo_1b_ab_apply s hB n e

theorem iota_off_apply (h : S1024x1024.Iotas .tc 32 [0]) (c : BitVec 32) (n e : Fin 1024) :
    addi (iota .tc S1024x1024 32 [0] h) (broadcast S1024x1024 c) (ix2 n e) = BitVec.ofNat 32 n.val + c :=
  congrArg (· + c) (iota_single_apply .tc S1024x1024 32 0 h (ix2 n e))

theorem blockword_apply (i : grid0.Coords) (n e : Fin 1024) :
    k0_pay5 i (ix2 n e) = BitVec.ofNat 32 n.val + BitVec.ofNat 32 (i 1).val * 1024#32 :=
  iota_off_apply _ _ n e

theorem bias_apply {α : Type} (c : S128.Idx → α) (h₁ : S128.ShapeCasts S1x128) (h₂ : S1x128.Broadcasts S1024x128)
    (e : Fin 1024) (j : Fin 128) :
    broadcastTo S1024x128 (shapeCast S1x128 c h₁) h₂ (ix2 e j) = c (ix1 j) :=
  (broadcastTo_1b_ab_apply _ h₂ e j).trans (shapeCast_a_1a_apply c h₁ 0 j)

theorem ofBits_zero : (Scalar.ofBits .f32 0x00000000#32 : Ideal .f32) = 0 := Ideal.ofBits_zero_f32

theorem lhs00_0 (i : S1024x128.Idx) (q : dot_S1024x1024_S1024x128_S1024x128_0_0_1_1_n_n.contr.Idx) :
    (dot_S1024x1024_S1024x128_S1024x128_0_0_1_1_n_n.lhsIdx i q 0).val = (q ⟨0, by decide⟩).val :=
  dot_S1024x1024_S1024x128_S1024x128_0_0_1_1_n_n.lhsIdx_val_of_single rfl i q
theorem lhs00_1 (i : S1024x128.Idx) (q : dot_S1024x1024_S1024x128_S1024x128_0_0_1_1_n_n.contr.Idx) :
    (dot_S1024x1024_S1024x128_S1024x128_0_0_1_1_n_n.lhsIdx i q 1).val = (i 0).val := by
  unfold DotDims.lhsIdx
  rw [dif_neg (show ¬(1 : Fin S1024x1024.rank) ∈ dot_S1024x1024_S1024x128_S1024x128_0_0_1_1_n_n.lhsBatch by decide),
    dif_pos (show (1 : Fin S1024x1024.rank) ∈ dot_S1024x1024_S1024x128_S1024x128_0_0_1_1_n_n.lhsNonContracting by decide)]
  rfl
theorem rhs00_0 (i : S1024x128.Idx) (q : dot_S1024x1024_S1024x128_S1024x128_0_0_1_1_n_n.contr.Idx) :
    (dot_S1024x1024_S1024x128_S1024x128_0_0_1_1_n_n.rhsIdx i q 0).val = (q ⟨0, by decide⟩).val :=
  dot_S1024x1024_S1024x128_S1024x128_0_0_1_1_n_n.rhsIdx_val_of_single rfl i q
theorem rhs00_1 (i : S1024x128.Idx) (q : dot_S1024x1024_S1024x128_S1024x128_0_0_1_1_n_n.contr.Idx) :
    (dot_S1024x1024_S1024x128_S1024x128_0_0_1_1_n_n.rhsIdx i q 1).val = (i 1).val := by
  unfold DotDims.rhsIdx
  rw [dif_neg (show ¬(1 : Fin S1024x128.rank) ∈ dot_S1024x1024_S1024x128_S1024x128_0_0_1_1_n_n.rhsBatch by decide),
    dif_pos (show (1 : Fin S1024x128.rank) ∈ dot_S1024x1024_S1024x128_S1024x128_0_0_1_1_n_n.rhsNonContracting by decide)]
  rfl

theorem matmul00_apply (L : FVec Ideal S1024x1024 .bf16) (R : FVec Ideal S1024x128 .bf16) (e : Fin 1024) (j : Fin 128) :
    matmul dot_S1024x1024_S1024x128_S1024x128_0_0_1_1_n_n none L R (constant (F := Ideal) S1024x128 .f32 0x00000000#32) (ix2 e j)
      = ∑ n : Fin 1024, L (ix2 n e) * R (ix2 n j) := by
  refine (Ideal.matmul_constant_zero_apply dot_S1024x1024_S1024x128_S1024x128_0_0_1_1_n_n none L R (ix2 e j)).trans ?_
  rw [← Equiv.sum_comp (contrEquiv1 dot_S1024x1024_S1024x128_S1024x128_0_0_1_1_n_n 1024 rfl rfl).symm]
  refine Finset.sum_congr rfl fun k _ => ?_
  have hk := contrEquiv1_symm_val dot_S1024x1024_S1024x128_S1024x128_0_0_1_1_n_n 1024 rfl rfl k
  have el : dot_S1024x1024_S1024x128_S1024x128_0_0_1_1_n_n.lhsIdx (ix2 e j)
      ((contrEquiv1 dot_S1024x1024_S1024x128_S1024x128_0_0_1_1_n_n 1024 rfl rfl).symm k) = ix2 k e :=
    funext fun a => Fin.ext (by
      match a with
      | ⟨0, _⟩ => exact (lhs00_0 _ _).trans hk
      | ⟨1, _⟩ => exact lhs00_1 _ _)
  have er : dot_S1024x1024_S1024x128_S1024x128_0_0_1_1_n_n.rhsIdx (ix2 e j)
      ((contrEquiv1 dot_S1024x1024_S1024x128_S1024x128_0_0_1_1_n_n 1024 rfl rfl).symm k) = ix2 k j :=
    funext fun a => Fin.ext (by
      match a with
      | ⟨0, _⟩ => exact (rhs00_0 _ _).trans hk
      | ⟨1, _⟩ => exact rhs00_1 _ _)
  rw [el, er]

theorem lhs10_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs10_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs10_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs10_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

theorem matmul10_apply (L : FVec Ideal S1024x128 .bf16) (R : FVec Ideal S128x128 .bf16) (e : Fin 1024) (j : Fin 128) :
    matmul dot_S1024x128_S128x128_S1024x128_1_0_0_1_n_n none L R (constant (F := Ideal) S1024x128 .f32 0x00000000#32) (ix2 e j)
      = ∑ k : Fin 128, L (ix2 e k) * R (ix2 k j) := by
  refine (Ideal.matmul_constant_zero_apply dot_S1024x128_S128x128_S1024x128_1_0_0_1_n_n none L R (ix2 e j)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 e j)
      ((contrEquiv1 dot_S1024x128_S128x128_S1024x128_1_0_0_1_n_n 128 rfl rfl).symm k) = ix2 e k :=
    funext fun a => Fin.ext (by
      match a with
      | ⟨0, _⟩ => exact lhs10_0 _ _
      | ⟨1, _⟩ => exact (lhs10_1 _ _).trans hk)
  have er : dot_S1024x128_S128x128_S1024x128_1_0_0_1_n_n.rhsIdx (ix2 e j)
      ((contrEquiv1 dot_S1024x128_S128x128_S1024x128_1_0_0_1_n_n 128 rfl rfl).symm k) = ix2 k j :=
    funext fun a => Fin.ext (by
      match a with
      | ⟨0, _⟩ => exact (rhs10_0 _ _).trans hk
      | ⟨1, _⟩ => exact rhs10_1 _ _)
  rw [el, er]

theorem pay3_apply (i : S1024x128.Idx) : k0_pay3 (F := Ideal) i = 0 := by
  unfold k0_pay3
  exact (congrFun (shapeCast_self _ _) i).trans Ideal.ofBits_zero_f32
theorem pay4_apply (i : S1024x128.Idx) : k0_pay4 (F := Ideal) i = 0 := by
  unfold k0_pay4
  exact (congrFun (shapeCast_self _ _) i).trans Ideal.ofBits_zero_f32

theorem pay1_eq (v : FVec Ideal S1024x128 .f32) : k0_pay1 (F := Ideal) v = v := by
  unfold k0_pay1
  exact shapeCast_self v _

theorem pay7_apply (i : grid0.Coords) (s : Vec Ideal S1x1024 .i32) (X a : Vec Ideal S1024x128 .f32) (e : Fin 1024) (j : Fin 128) :
    k0_pay7 (F := Ideal) i s X a (ix2 e j)
      = a (ix2 e j) + ∑ n : Fin 1024,
          (if s (ix2 (0 : Fin 1) e) = BitVec.ofNat 32 n.val + BitVec.ofNat 32 (i 1).val * 1024#32 then (1 : EReal) else 0) * X (ix2 n j) := by
  unfold k0_pay7 k0_pay6
  refine (congrFun (shapeCast_self _ _) (ix2 e j)).trans ?_
  refine (addf_apply _ _ _).trans ?_
  congr 1
  refine (matmul00_apply _ _ e j).trans ?_
  refine Finset.sum_congr rfl fun n _ => ?_
  congr 1
  · exact entry_eq _ _ _ _ (ix2 n e) _ _ (srow_apply s _ _ _ n e) (blockword_apply i n e)
  · rw [truncf_apply, shapeCast_self]

theorem pay8_apply (i : grid0.Coords) (s : Vec Ideal S1x1024 .i32) (X a : Vec Ideal S1024x128 .f32) (e : Fin 1024) (j : Fin 128) :
    k0_pay8 (F := Ideal) i s X a (ix2 e j)
      = a (ix2 e j) + ∑ n : Fin 1024,
          (if s (ix2 (0 : Fin 1) e) = BitVec.ofNat 32 n.val + BitVec.ofNat 32 (i 1).val * 1024#32 then (1 : EReal) else 0) * X (ix2 n j) := by
  unfold k0_pay8 k0_pay6
  refine (addf_apply _ _ _).trans ?_
  congr 1
  refine (matmul00_apply _ _ e j).trans ?_
  refine Finset.sum_congr rfl fun n _ => ?_
  congr 1
  · exact entry_eq _ _ _ _ (ix2 n e) _ _ (srow_apply s _ _ _ n e) (blockword_apply i n e)
  · rw [truncf_apply, shapeCast_self]

theorem pay2_apply (a b : Vec Ideal S1024x128 .f32) (W₁ W₂ : Vec Ideal S128x128 .f32) (b₁ b₂ : Vec Ideal S128 .f32) (e : Fin 1024) (j : Fin 128) :
    k0_pay2 (F := Ideal) a b W₁ W₂ b₁ b₂ (ix2 e j)
      = (∑ k : Fin 128, max ((∑ k' : Fin 128, (a (ix2 e k') - b (ix2 e k')) * W₁ (ix2 k' k)) + b₁ (ix1 k)) 0 * W₂ (ix2 k j)) + b₂ (ix1 j) := by
  unfold k0_pay2
  simp only [truncf_apply, addf_apply, subf_apply, maximumf_apply, broadcast_apply, matmul10_apply, bias_apply, ofBits_zero]

end Cert.KernelIdeal.EdgeValue

end
-- ==== Proof.PaddedSpec.lean ====
import Idealize.ShloMosaic.PureOps.Ideal
import Idealize.ShloMosaic.Lib.ValueIdx

noncomputable section

namespace Cert.PaddedSpec

open Idealize.ShloMosaic Idealize.ShloMosaic.ValueIdx

def padRow (xp : (⟨2, ![50176, 128]⟩ : Shape).Idx → EReal) (w : BitVec 32) (k : Fin 128) : EReal :=
  if hw : 0 ≤ w.toInt ∧ w.toInt < 50176 then xp (ix2 (⟨w.toInt.toNat, by omega⟩ : Fin 50176) k) else 0

def msgArray (sp dp : (⟨2, ![1, 600064]⟩ : Shape).Idx → BitVec 32) (xp : (⟨2, ![50176, 128]⟩ : Shape).Idx → EReal)
    (W₁ : (⟨2, ![128, 128]⟩ : Shape).Idx → EReal) (b₁ : (⟨1, ![128]⟩ : Shape).Idx → EReal)
    (W₂ : (⟨2, ![128, 128]⟩ : Shape).Idx → EReal) (b₂ : (⟨1, ![128]⟩ : Shape).Idx → EReal) :
    (⟨2, ![600064, 128]⟩ : Shape).Idx → EReal :=
  fun i => (∑ k : Fin 128,
      max ((∑ k' : Fin 128, (padRow xp (sp (ix2 (0 : Fin 1) (i 0))) k' - padRow xp (dp (ix2 (0 : Fin 1) (i 0))) k') * W₁ (ix2 k' k)) + b₁ (ix1 k)) 0
        * W₂ (ix2 k (i 1))) + b₂ (ix1 (i 1))

def aggPad (sp : (⟨2, ![1, 600064]⟩ : Shape).Idx → BitVec 32) (M : (⟨2, ![600064, 128]⟩ : Shape).Idx → EReal) (n : Fin 50176) (j : Fin 128) : EReal :=
  ∑ E : Fin 600064, if (sp (ix2 (0 : Fin 1) E)).toInt = (n.val : Int) then M (ix2 E j) else 0

def outArray (sp : (⟨2, ![1, 600064]⟩ : Shape).Idx → BitVec 32) (M : (⟨2, ![600064, 128]⟩ : Shape).Idx → EReal)
    (xp : (⟨2, ![50176, 128]⟩ : Shape).Idx → EReal)
    (A : (⟨2, ![256, 128]⟩ : Shape).Idx → EReal) (c₁ : (⟨1, ![128]⟩ : Shape).Idx → EReal)
    (A₂ : (⟨2, ![128, 128]⟩ : Shape).Idx → EReal) (c₂ : (⟨1, ![128]⟩ : Shape).Idx → EReal) :
    (⟨2, ![50176, 128]⟩ : Shape).Idx → EReal :=
  fun i => (∑ k : Fin 128,
      max (((∑ k' : Fin 128, xp (ix2 (i 0) k') * A (ix2 (⟨k'.val, by omega⟩ : Fin 256) k))
          + (∑ k' : Fin 128, aggPad sp M (i 0) k' * A (ix2 (⟨128 + k'.val, by omega⟩ : Fin 256) k))) + c₁ (ix1 k)) 0
        * A₂ (ix2 k (i 1))) + c₂ (ix1 (i 1))

end Cert.PaddedSpec

end
-- ==== Proof.EdgePieces.lean ====
import proofs.«410833_j1056561954999_1_alg».proof.Proof.KI_EdgeFrame
import Idealize.ShloMosaic.Lib.Pipeline.Value

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl

private theorem hz1 : (![0] : Fin 1 → Nat) = fun _ => 0 := funext fun a => by fin_cases a; rfl

theorem sout_First_0_eq (c : Dev nD) (i : grid0.Coords) (a : Call) (hc0 : condFirst i) (hc1 : ¬condLast i)
    (x : Blocks F) :
    sout_First_0 c i a hc0 hc1 x = k0_pay7 i x.x0 x.x2 (k0_pay3 (F := F)) := by
  unfold sout_First_0
  rw [View.read_writes_eq_canon _ _ _ (scover_First_0 c i a hc0 hc1 x)]
  unfold runFirst
  dsimp only
  sl_unfold_words
  rw [View.canon_cons_unit_zero (S := S1024x128) hz2]
  simp only [View.readAt_eq_ld, a.harg2.read_unread, a.harg4.read_unread, View.ld_unit_zero (S := S1x1024) hz2, View.ld_unit_zero (S := S1024x128) hz2, View.readCov_unit_zero (S := S1024x128) _ hz2]

theorem sout_First_1_eq (c : Dev nD) (i : grid0.Coords) (a : Call) (hc0 : condFirst i) (hc1 : ¬condLast i)
    (x : Blocks F) :
    sout_First_1 c i a hc0 hc1 x = k0_pay1 (k0_pay8 i x.x1 x.x2 (k0_pay4 (F := F))) := by
  unfold sout_First_1
  rw [View.read_writes_eq_canon _ _ _ (scover_First_1 c i a hc0 hc1 x)]
  unfold runFirst
  dsimp only
  sl_unfold_words
  rw [View.canon_cons_unit_zero (S := S1024x128) hz2]
  simp only [View.readAt_eq_ld, a.harg3.read_unread, a.harg4.read_unread, View.ld_unit_zero (S := S1x1024) hz2, View.ld_unit_zero (S := S1024x128) hz2, View.readCov_unit_zero (S := S1024x128) _ hz2]

theorem sout_Mid_0_eq (c : Dev nD) (i : grid0.Coords) (a : Call) (hc0 : ¬condFirst i) (hc1 : ¬condLast i)
    (x : Blocks F) (xs0 : Vec F S1024x128 .f32) (xs1 : Vec F S1024x128 .f32) :
    sout_Mid_0 c i a hc0 hc1 x xs0 xs1 = k0_pay7 i x.x0 x.x2 xs0 := by
  unfold sout_Mid_0
  rw [View.read_writes_eq_canon _ _ _ (scover_Mid_0 c i a hc0 hc1 x xs0 xs1)]
  unfold runMid
  dsimp only
  sl_unfold_words
  rw [View.canon_unit_zero (S := S1024x128) hz2]
  simp only [View.readAt_eq_ld, a.harg2.read_unread, a.harg4.read_unread, a.harg10.read_unread, View.ld_unit_zero (S := S1x1024) hz2, View.ld_unit_zero (S := S1024x128) hz2]

theorem sout_Mid_1_eq (c : Dev nD) (i : grid0.Coords) (a : Call) (hc0 : ¬condFirst i) (hc1 : ¬condLast i)
    (x : Blocks F) (xs0 : Vec F S1024x128 .f32) (xs1 : Vec F S1024x128 .f32) :
    sout_Mid_1 c i a hc0 hc1 x xs0 xs1 = k0_pay1 (k0_pay8 i x.x1 x.x2 xs1) := by
  unfold sout_Mid_1
  rw [View.read_writes_eq_canon _ _ _ (scover_Mid_1 c i a hc0 hc1 x xs0 xs1)]
  unfold runMid
  dsimp only
  sl_unfold_words
  rw [View.canon_unit_zero (S := S1024x128) hz2]
  simp only [View.readAt_eq_ld, a.harg3.read_unread, a.harg4.read_unread, a.harg11.read_unread, View.ld_unit_zero (S := S1x1024) hz2, View.ld_unit_zero (S := S1024x128) hz2]

theorem sout_Last_0_eq (c : Dev nD) (i : grid0.Coords) (a : Call) (hc0 : ¬condFirst i) (hc1 : condLast i)
    (x : Blocks F) (xs0 : Vec F S1024x128 .f32) (xs1 : Vec F S1024x128 .f32) :
    sout_Last_0 c i a hc0 hc1 x xs0 xs1 = k0_pay7 i x.x0 x.x2 xs0 := by
  unfold sout_Last_0
  rw [View.read_writes_eq_canon _ _ _ (scover_Last_0 c i a hc0 hc1 x xs0 xs1)]
  unfold runLast
  dsimp only
  sl_unfold_words
  rw [View.canon_unit_zero (S := S1024x128) hz2]
  simp only [View.readAt_eq_ld, a.harg2.read_unread, a.harg4.read_unread, a.harg10.read_unread, View.ld_unit_zero (S := S1x1024) hz2, View.ld_unit_zero (S := S1024x128) hz2]

theorem sout_Last_1_eq (c : Dev nD) (i : grid0.Coords) (a : Call) (hc0 : ¬condFirst i) (hc1 : condLast i)
    (x : Blocks F) (xs0 : Vec F S1024x128 .f32) (xs1 : Vec F S1024x128 .f32) :
    sout_Last_1 c i a hc0 hc1 x xs0 xs1 = k0_pay1 (k0_pay8 i x.x1 x.x2 xs1) := by
  unfold sout_Last_1
  rw [View.read_writes_eq_canon _ _ _ (scover_Last_1 c i a hc0 hc1 x xs0 xs1)]
  unfold runLast
  dsimp only
  sl_unfold_words
  rw [View.canon_unit_zero (S := S1024x128) hz2]
  simp only [View.readAt_eq_ld, a.harg3.read_unread, a.harg4.read_unread, a.harg11.read_unread, View.ld_unit_zero (S := S1x1024) hz2, View.ld_unit_zero (S := S1024x128) hz2]

theorem out_Last_eq (c : Dev nD) (i : grid0.Coords) (a : Call) (hc0 : ¬condFirst i) (hc1 : condLast i)
    (x : Blocks F) (xs0 : Vec F S1024x128 .f32) (xs1 : Vec F S1024x128 .f32) :
    out_Last c i a hc0 hc1 x xs0 xs1 = k0_pay2 (k0_pay7 i x.x0 x.x2 xs0) (k0_pay1 (k0_pay8 i x.x1 x.x2 xs1)) x.x3 x.x5 x.x4 x.x6 := by
  unfold out_Last
  rw [View.read_writes_eq_canon _ _ _ (cover_Last c i a hc0 hc1 x xs0 xs1)]
  unfold runLast
  dsimp only
  sl_unfold_words
  rw [View.canon_unit_zero (S := S1024x128) hz2]
  simp only [View.readAt_eq_ld, a.harg2.read_unread, a.harg3.read_unread, a.harg4.read_unread, a.harg5.read_unread, a.harg6.read_unread, a.harg7.read_unread, a.harg8.read_unread, a.harg10.read_unread, a.harg11.read_unread, View.ld_unit_zero (S := S1x1024) hz2, View.ld_unit_zero (S := S1024x128) hz2, View.ld_unit_zero (S := S128x128) hz2, View.ld_unit_zero (S := S128) hz1, View.readCov_unit_zero (S := S1024x128) _ hz2]

end Cert.KernelIdeal.Edge

end
-- ==== Proof.EdgeSteps.lean ====
import proofs.«410833_j1056561954999_1_alg».proof.Proof.KI_EdgeFrame
import proofs.«410833_j1056561954999_1_alg».proof.Proof.EdgePieces
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

abbrev acc0 (c : Dev nD) (n : ℕ) (hn : n < cfg0.N) : Vec Ideal S1024x128 .f32 := (Edge.outsAt V c n hn).2.1

abbrev acc1 (c : Dev nD) (n : ℕ) (hn : n < cfg0.N) : Vec Ideal S1024x128 .f32 := (Edge.outsAt V c n hn).2.2

abbrev outb (c : Dev nD) (n : ℕ) (hn : n < cfg0.N) : Vec Ideal S1024x128 .bf16 := (Edge.outsAt V c n hn).1

theorem acc0_first (c : Dev nD) (t : Fin cfg0.N) (h0 : t.val % 49 = 0) :
    acc0 V c t.val t.isLt = k0_pay7 (grid0.coords t) (Edge.iblk V c 0 t) (Edge.iblk V c 2 t) (k0_pay3 (F := Ideal)) := by
  have h1 : ¬t.val % 49 = 48 := by omega
  show (Edge.outsAt V c t.val t.isLt).2.1 = _
  rw [Edge.outsAt_First V c t h0 h1]
  dsimp only
  exact Edge.sout_First_0_eq (F := Ideal) c (grid0.coords t) (Edge.callAt t) ((Edge.hcondFirst t).mpr h0) (fun h => h1 ((Edge.hcondLast t).mp h)) (Edge.blocksAt V c t)

theorem acc1_first (c : Dev nD) (t : Fin cfg0.N) (h0 : t.val % 49 = 0) :
    acc1 V c t.val t.isLt = k0_pay1 (k0_pay8 (grid0.coords t) (Edge.iblk V c 1 t) (Edge.iblk V c 2 t) (k0_pay4 (F := Ideal))) := by
  have h1 : ¬t.val % 49 = 48 := by omega
  show (Edge.outsAt V c t.val t.isLt).2.2 = _
  rw [Edge.outsAt_First V c t h0 h1]
  dsimp only
  exact Edge.sout_First_1_eq (F := Ideal) c (grid0.coords t) (Edge.callAt t) ((Edge.hcondFirst t).mpr h0) (fun h => h1 ((Edge.hcondLast t).mp h)) (Edge.blocksAt V c t)

theorem acc0_step (c : Dev nD) (t : Fin cfg0.N) (h0 : ¬t.val % 49 = 0) :
    acc0 V c t.val t.isLt = k0_pay7 (grid0.coords t) (Edge.iblk V c 0 t) (Edge.iblk V c 2 t) (acc0 V c (t.val - 1) (Nat.lt_of_le_of_lt (Nat.sub_le _ _) t.isLt)) := by
  show (Edge.outsAt V c t.val t.isLt).2.1 = _
  by_cases h1 : t.val % 49 = 48
  · rw [Edge.outsAt_Last V c t h0 h1]
    dsimp only
    exact Edge.sout_Last_0_eq (F := Ideal) c (grid0.coords t) (Edge.callAt t) (fun h => h0 ((Edge.hcondFirst t).mp h)) ((Edge.hcondLast t).mpr h1) (Edge.blocksAt V c t) (Edge.outsAt V c (t.val - 1) (Nat.lt_of_le_of_lt (Nat.sub_le _ _) t.isLt)).2.1 (Edge.outsAt V c (t.val - 1) (Nat.lt_of_le_of_lt (Nat.sub_le _ _) t.isLt)).2.2
  · rw [Edge.outsAt_Mid V c t h0 h1]
    dsimp only
    exact Edge.sout_Mid_0_eq (F := Ideal) c (grid0.coords t) (Edge.callAt t) (fun h => h0 ((Edge.hcondFirst t).mp h)) (fun h => h1 ((Edge.hcondLast t).mp h)) (Edge.blocksAt V c t) (Edge.outsAt V c (t.val - 1) (Nat.lt_of_le_of_lt (Nat.sub_le _ _) t.isLt)).2.1 (Edge.outsAt V c (t.val - 1) (Nat.lt_of_le_of_lt (Nat.sub_le _ _) t.isLt)).2.2

theorem acc1_step (c : Dev nD) (t : Fin cfg0.N) (h0 : ¬t.val % 49 = 0) :
    acc1 V c t.val t.isLt = k0_pay1 (k0_pay8 (grid0.coords t) (Edge.iblk V c 1 t) (Edge.iblk V c 2 t) (acc1 V c (t.val - 1) (Nat.lt_of_le_of_lt (Nat.sub_le _ _) t.isLt))) := by
  show (Edge.outsAt V c t.val t.isLt).2.2 = _
  by_cases h1 : t.val % 49 = 48
  · rw [Edge.outsAt_Last V c t h0 h1]
    dsimp only
    exact Edge.sout_Last_1_eq (F := Ideal) c (grid0.coords t) (Edge.callAt t) (fun h => h0 ((Edge.hcondFirst t).mp h)) ((Edge.hcondLast t).mpr h1) (Edge.blocksAt V c t) (Edge.outsAt V c (t.val - 1) (Nat.lt_of_le_of_lt (Nat.sub_le _ _) t.isLt)).2.1 (Edge.outsAt V c (t.val - 1) (Nat.lt_of_le_of_lt (Nat.sub_le _ _) t.isLt)).2.2
  · rw [Edge.outsAt_Mid V c t h0 h1]
    dsimp only
    exact Edge.sout_Mid_1_eq (F := Ideal) c (grid0.coords t) (Edge.callAt t) (fun h => h0 ((Edge.hcondFirst t).mp h)) (fun h => h1 ((Edge.hcondLast t).mp h)) (Edge.blocksAt V c t) (Edge.outsAt V c (t.val - 1) (Nat.lt_of_le_of_lt (Nat.sub_le _ _) t.isLt)).2.1 (Edge.outsAt V c (t.val - 1) (Nat.lt_of_le_of_lt (Nat.sub_le _ _) t.isLt)).2.2

theorem outb_last (c : Dev nD) (t : Fin cfg0.N) (h1 : t.val % 49 = 48) :
    outb V c t.val t.isLt = k0_pay2 (acc0 V c t.val t.isLt) (acc1 V c t.val t.isLt) (Edge.iblk V c 3 t) (Edge.iblk V c 5 t) (Edge.iblk V c 4 t) (Edge.iblk V c 6 t) := by
  have h0 : ¬t.val % 49 = 0 := by omega
  rw [acc0_step V c t h0, acc1_step V c t h0]
  show (Edge.outsAt V c t.val t.isLt).1 = _
  rw [Edge.outsAt_Last V c t h0 h1]
  dsimp only
  exact Edge.out_Last_eq (F := Ideal) c (grid0.coords t) (Edge.callAt t) (fun h => h0 ((Edge.hcondFirst t).mp h)) ((Edge.hcondLast t).mpr h1) (Edge.blocksAt V c t) (Edge.outsAt V c (t.val - 1) (Nat.lt_of_le_of_lt (Nat.sub_le _ _) t.isLt)).2.1 (Edge.outsAt V c (t.val - 1) (Nat.lt_of_le_of_lt (Nat.sub_le _ _) t.isLt)).2.2

end Cert.KernelIdeal.EdgeValue

end
-- ==== Proof.EdgeBlocks.lean ====
import proofs.«410833_j1056561954999_1_alg».proof.Proof.KI_EdgeShared
import Idealize.ShloMosaic.Lib.ValueIdx
import Idealize.ShloMosaic.Lib.Pipeline.Value

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem

theorem index_0 (t : Fin grid0.N) : win0_0.index t = ![0, t.val / 49] := by
  have h : t.val < 28714 := lt_of_lt_of_eq t.isLt N_0
  funext a
  match a with
  | ⟨0, _⟩ => rfl
  | ⟨1, _⟩ =>
    show (BitVec.ofNat 32 (grid0.coords t 0).val).toNat = t.val / 49
    rw [Edge.coord_outer, BitVec.toNat_ofNat]
    exact Nat.mod_eq_of_lt (by omega)

theorem index_1 (t : Fin grid0.N) : win0_1.index t = ![0, t.val / 49] := by
  have h : t.val < 28714 := lt_of_lt_of_eq t.isLt N_0
  funext a
  match a with
  | ⟨0, _⟩ => rfl
  | ⟨1, _⟩ =>
    show (BitVec.ofNat 32 (grid0.coords t 0).val).toNat = t.val / 49
    rw [Edge.coord_outer, BitVec.toNat_ofNat]
    exact Nat.mod_eq_of_lt (by omega)

theorem index_2 (t : Fin grid0.N) : win0_2.index t = ![t.val % 49, 0] := by
  funext a
  match a with
  | ⟨0, _⟩ =>
    show (BitVec.ofNat 32 (grid0.coords t 1).val).toNat = t.val % 49
    rw [Edge.coord_inner, BitVec.toNat_ofNat]
    exact Nat.mod_eq_of_lt (by omega)
  | ⟨1, _⟩ => rfl

variable (V : (c : Dev nD) → (b : Ref sig .tc) → Buf (Elt Ideal) ((c : Thread nD τ).loc b))

theorem src_block (c : Dev nD) (t : Fin cfg0.N) (e : Fin 1024) :
    (Edge.iblk V c 0 t : S1x1024.Idx → BitVec 32) (ix2 (0 : Fin 1) e)
      = (V c main_v5 : S1x600064.Idx → BitVec 32) (ix2 (0 : Fin 1) (⟨1024 * (t.val / 49) + e.val, by have h : t.val < 28714 := lt_of_lt_of_eq t.isLt N_0; have := e.isLt; omega⟩ : Fin 600064)) := by
  unfold Edge.iblk
  rw [View.read_apply]
  show V c main_v5 _ = V c main_v5 _
  congr 1
  funext a
  apply Fin.ext
  match a with
  | ⟨0, _⟩ =>
    show win0_0.index t 0 * 1 + 1 * 0 = 0
    rw [index_0]; rfl
  | ⟨1, _⟩ =>
    show win0_0.index t 1 * 1024 + 1 * e.val = 1024 * (t.val / 49) + e.val
    rw [index_0]
    show t.val / 49 * 1024 + 1 * e.val = 1024 * (t.val / 49) + e.val
    omega

theorem dst_block (c : Dev nD) (t : Fin cfg0.N) (e : Fin 1024) :
    (Edge.iblk V c 1 t : S1x1024.Idx → BitVec 32) (ix2 (0 : Fin 1) e)
      = (V c main_v7 : S1x600064.Idx → BitVec 32) (ix2 (0 : Fin 1) (⟨1024 * (t.val / 49) + e.val, by have h : t.val < 28714 := lt_of_lt_of_eq t.isLt N_0; have := e.isLt; omega⟩ : Fin 600064)) := by
  unfold Edge.iblk
  rw [View.read_apply]
  show V c main_v7 _ = V c main_v7 _
  congr 1
  funext a
  apply Fin.ext
  match a with
  | ⟨0, _⟩ =>
    show win0_1.index t 0 * 1 + 1 * 0 = 0
    rw [index_1]; rfl
  | ⟨1, _⟩ =>
    show win0_1.index t 1 * 1024 + 1 * e.val = 1024 * (t.val / 49) + e.val
    rw [index_1]
    show t.val / 49 * 1024 + 1 * e.val = 1024 * (t.val / 49) + e.val
    omega

theorem node_block (c : Dev nD) (t : Fin cfg0.N) (n : Fin 1024) (j : Fin 128) :
    (Edge.iblk V c 2 t : S1024x128.Idx → EReal) (ix2 n j)
      = (V c main_v8 : S50176x128.Idx → EReal) (ix2 (⟨1024 * (t.val % 49) + n.val, by have h : t.val < 28714 := lt_of_lt_of_eq t.isLt N_0; have := n.isLt; omega⟩ : Fin 50176) j) := by
  unfold Edge.iblk
  rw [View.read_apply]
  show V c main_v8 _ = V c main_v8 _
  congr 1
  funext a
  apply Fin.ext
  match a with
  | ⟨0, _⟩ =>
    show win0_2.index t 0 * 1024 + 1 * n.val = 1024 * (t.val % 49) + n.val
    rw [index_2]
    show t.val % 49 * 1024 + 1 * n.val = 1024 * (t.val % 49) + n.val
    omega
  | ⟨1, _⟩ =>
    show win0_2.index t 1 * 128 + 1 * j.val = j.val
    rw [index_2]
    show 0 * 128 + 1 * j.val = j.val
    omega

theorem w1_block (c : Dev nD) (t : Fin cfg0.N) : (Edge.iblk V c 3 t : S128x128.Idx → EReal) = V c main_arg2 := by
  funext y
  unfold Edge.iblk
  rw [View.read_apply]
  show V c main_arg2 _ = V c main_arg2 _
  congr 1
  funext a
  apply Fin.ext
  match a with
  | ⟨0, _⟩ => show 0 * 128 + 1 * (y 0).val = (y 0).val; omega
  | ⟨1, _⟩ => show 0 * 128 + 1 * (y 1).val = (y 1).val; omega
theorem b1_block (c : Dev nD) (t : Fin cfg0.N) : (Edge.iblk V c 4 t : S128.Idx → EReal) = V c main_arg3 := by
  funext y
  unfold Edge.iblk
  rw [View.read_apply]
  show V c main_arg3 _ = V c main_arg3 _
  congr 1
  funext a
  apply Fin.ext
  match a with
  | ⟨0, _⟩ => show 0 * 128 + 1 * (y 0).val = (y 0).val; omega
theorem w2_block (c : Dev nD) (t : Fin cfg0.N) : (Edge.iblk V c 5 t : S128x128.Idx → EReal) = V c main_arg4 := by
  funext y
  unfold Edge.iblk
  rw [View.read_apply]
  show V c main_arg4 _ = V c main_arg4 _
  congr 1
  funext a
  apply Fin.ext
  match a with
  | ⟨0, _⟩ => show 0 * 128 + 1 * (y 0).val = (y 0).val; omega
  | ⟨1, _⟩ => show 0 * 128 + 1 * (y 1).val = (y 1).val; omega
theorem b2_block (c : Dev nD) (t : Fin cfg0.N) : (Edge.iblk V c 6 t : S128.Idx → EReal) = V c main_arg5 := by
  funext y
  unfold Edge.iblk
  rw [View.read_apply]
  show V c main_arg5 _ = V c main_arg5 _
  congr 1
  funext a
  apply Fin.ext
  match a with
  | ⟨0, _⟩ => show 0 * 128 + 1 * (y 0).val = (y 0).val; omega

end Cert.KernelIdeal.EdgeValue

end
-- ==== Proof.EdgeOneHot.lean ====
import proofs.«410833_j1056561954999_1_alg».proof.Proof.PaddedSpec

noncomputable section

namespace Cert.KernelIdeal.EdgeValue

open Idealize.ShloMosaic Idealize.ShloMosaic.ValueIdx Cert.PaddedSpec

theorem blockword_eq (n k : ℕ) : BitVec.ofNat 32 n + BitVec.ofNat 32 k * 1024#32 = BitVec.ofNat 32 (n + 1024 * k) := by
  apply BitVec.eq_of_toNat_eq
  simp only [BitVec.toNat_add, BitVec.toNat_mul, BitVec.toNat_ofNat]
  omega

theorem toInt_ofNat_small (m : ℕ) (hm : m < 2147483648) : (BitVec.ofNat 32 m).toInt = (m : Int) := by
  rw [BitVec.toInt_eq_toNat_cond, BitVec.toNat_ofNat]
  have e : m % 2 ^ 32 = m := Nat.mod_eq_of_lt (by omega)
  rw [e]
  split
  · rfl
  · omega

theorem word_eq_iff (w : BitVec 32) (m : ℕ) (hm : m < 2147483648) : w = BitVec.ofNat 32 m ↔ w.toInt = (m : Int) := by
  constructor
  · rintro rfl
    exact toInt_ofNat_small m hm
  · intro h
    apply BitVec.eq_of_toInt_eq
    rw [h, toInt_ofNat_small m hm]

def partRow (xp : (⟨2, ![50176, 128]⟩ : Shape).Idx → EReal) (w : BitVec 32) (m : ℕ) (j : Fin 128) : EReal :=
  if w.toInt < 1024 * (m : Int) then padRow xp w j else 0

theorem partRow_zero (xp : (⟨2, ![50176, 128]⟩ : Shape).Idx → EReal) (w : BitVec 32) (j : Fin 128) : partRow xp w 0 j = 0 := by
  unfold partRow
  by_cases h : w.toInt < 1024 * ((0 : ℕ) : Int)
  · rw [if_pos h]
    unfold padRow
    rw [dif_neg (by omega)]
  · rw [if_neg h]

theorem partRow_full (xp : (⟨2, ![50176, 128]⟩ : Shape).Idx → EReal) (w : BitVec 32) (j : Fin 128) : partRow xp w 49 j = padRow xp w j := by
  unfold partRow
  by_cases h : w.toInt < 1024 * ((49 : ℕ) : Int)
  · rw [if_pos h]
  · rw [if_neg h]
    unfold padRow
    rw [dif_neg (by omega)]

theorem onehot_sum (xp : (⟨2, ![50176, 128]⟩ : Shape).Idx → EReal) (w : BitVec 32) (k : ℕ) (hk : k < 49) (j : Fin 128)
    (X : Fin 1024 → EReal) (hX : ∀ (n : Fin 1024) (R : Fin 50176), R.val = 1024 * k + n.val → X n = xp (ix2 R j)) :
    (∑ n : Fin 1024, (if w = BitVec.ofNat 32 n.val + BitVec.ofNat 32 k * 1024#32 then (1 : EReal) else 0) * X n)
      = if 1024 * (k : Int) ≤ w.toInt ∧ w.toInt < 1024 * ((k : Int) + 1) then padRow xp w j else 0 := by
  by_cases h : 1024 * (k : Int) ≤ w.toInt ∧ w.toInt < 1024 * ((k : Int) + 1)
  · rw [if_pos h]
    obtain ⟨h1, h2⟩ := h
    have hn0 : w.toInt.toNat - 1024 * k < 1024 := by omega
    rw [Finset.sum_eq_single (⟨w.toInt.toNat - 1024 * k, hn0⟩ : Fin 1024)]
    · have hw : w = BitVec.ofNat 32 (w.toInt.toNat - 1024 * k) + BitVec.ofNat 32 k * 1024#32 := by
        rw [blockword_eq, word_eq_iff _ _ (by omega)]
        omega
      rw [if_pos hw, one_mul]
      have hpad : 0 ≤ w.toInt ∧ w.toInt < 50176 := by omega
      unfold padRow
      rw [dif_pos hpad]
      exact hX _ _ (by show w.toInt.toNat = 1024 * k + (w.toInt.toNat - 1024 * k); omega)
    · intro n _ hne
      have hn := n.isLt
      have : ¬ w = BitVec.ofNat 32 n.val + BitVec.ofNat 32 k * 1024#32 := by
        intro hw
        rw [blockword_eq, word_eq_iff _ _ (by omega)] at hw
        apply hne
        apply Fin.ext
        show n.val = w.toInt.toNat - 1024 * k
        omega
      rw [if_neg this, zero_mul]
    · intro h; exact absurd (Finset.mem_univ _) h
  · rw [if_neg h]
    apply Finset.sum_eq_zero
    intro n _
    have hn := n.isLt
    have : ¬ w = BitVec.ofNat 32 n.val + BitVec.ofNat 32 k * 1024#32 := by
      intro hw
      rw [blockword_eq, word_eq_iff _ _ (by omega)] at hw
      apply h
      omega
    rw [if_neg this, zero_mul]

theorem partRow_succ (xp : (⟨2, ![50176, 128]⟩ : Shape).Idx → EReal) (w : BitVec 32) (k : ℕ) (hk : k < 49) (j : Fin 128)
    (X : Fin 1024 → EReal) (hX : ∀ (n : Fin 1024) (R : Fin 50176), R.val = 1024 * k + n.val → X n = xp (ix2 R j)) :
    partRow xp w k j + (∑ n : Fin 1024, (if w = BitVec.ofNat 32 n.val + BitVec.ofNat 32 k * 1024#32 then (1 : EReal) else 0) * X n)
      = partRow xp w (k + 1) j := by
  rw [onehot_sum xp w k hk j X hX]
  unfold partRow
  by_cases h1 : w.toInt < 1024 * (k : Int)
  · rw [if_pos h1, if_neg (by omega), if_pos (by push_cast; omega), add_zero]
  · by_cases h2 : w.toInt < 1024 * ((k : Int) + 1)
    · rw [if_neg h1, if_pos ⟨by omega, h2⟩, if_pos (by push_cast; omega), zero_add]
    · rw [if_neg h1, if_neg (by omega), if_neg (by push_cast; omega), add_zero]

end Cert.KernelIdeal.EdgeValue

end
-- ==== Proof.EdgeAcc.lean ====
import proofs.«410833_j1056561954999_1_alg».proof.Proof.EdgeSteps
import proofs.«410833_j1056561954999_1_alg».proof.Proof.EdgeBlocks
import proofs.«410833_j1056561954999_1_alg».proof.Proof.EdgePayload
import proofs.«410833_j1056561954999_1_alg».proof.Proof.EdgeOneHot

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem
open Cert.PaddedSpec

theorem acc_point7 (xp : (⟨2, ![50176, 128]⟩ : Shape).Idx → EReal) (i : grid0.Coords) (s : Vec Ideal S1x1024 .i32)
    (X a : Vec Ideal S1024x128 .f32) (e : Fin 1024) (j : Fin 128) (w : BitVec 32) (k : ℕ) (hk : k < 49)
    (hi : (i 1).val = k) (hs : s (ix2 (0 : Fin 1) e) = w)
    (hX : ∀ (n : Fin 1024) (R : Fin 50176), R.val = 1024 * k + n.val → X (ix2 n j) = xp (ix2 R j))
    (ha : a (ix2 e j) = partRow xp w k j) :
    k0_pay7 (F := Ideal) i s X a (ix2 e j) = partRow xp w (k + 1) j := by
  rw [pay7_apply, hi, hs, ha]
  exact partRow_succ xp w k hk j (fun n => X (ix2 n j)) hX

theorem acc_point8 (xp : (⟨2, ![50176, 128]⟩ : Shape).Idx → EReal) (i : grid0.Coords) (s : Vec Ideal S1x1024 .i32)
    (X a : Vec Ideal S1024x128 .f32) (e : Fin 1024) (j : Fin 128) (w : BitVec 32) (k : ℕ) (hk : k < 49)
    (hi : (i 1).val = k) (hs : s (ix2 (0 : Fin 1) e) = w)
    (hX : ∀ (n : Fin 1024) (R : Fin 50176), R.val = 1024 * k + n.val → X (ix2 n j) = xp (ix2 R j))
    (ha : a (ix2 e j) = partRow xp w k j) :
    k0_pay1 (F := Ideal) (k0_pay8 (F := Ideal) i s X a) (ix2 e j) = partRow xp w (k + 1) j := by
  rw [pay1_eq, pay8_apply, hi, hs, ha]
  exact partRow_succ xp w k hk j (fun n => X (ix2 n j)) hX

variable (V : (c : Dev nD) → (b : Ref sig .tc) → Buf (Elt Ideal) ((c : Thread nD τ).loc b))

abbrev sarr (c : Dev nD) : (⟨2, ![1, 600064]⟩ : Shape).Idx → BitVec 32 := V c main_v5
abbrev darr (c : Dev nD) : (⟨2, ![1, 600064]⟩ : Shape).Idx → BitVec 32 := V c main_v7
abbrev xarr (c : Dev nD) : (⟨2, ![50176, 128]⟩ : Shape).Idx → EReal := V c main_v8

theorem sblk_at (c : Dev nD) (t : Fin cfg0.N) (e : Fin 1024) (E : Fin 600064) (hE : E.val = 1024 * (t.val / 49) + e.val) :
    (Edge.iblk V c 0 t : S1x1024.Idx → BitVec 32) (ix2 (0 : Fin 1) e) = sarr V c (ix2 (0 : Fin 1) E) :=
  (src_block V c t e).trans (congrArg (fun R : Fin 600064 => (V c main_v5 : S1x600064.Idx → BitVec 32) (ix2 (0 : Fin 1) R)) (Fin.ext hE.symm))

theorem dblk_at (c : Dev nD) (t : Fin cfg0.N) (e : Fin 1024) (E : Fin 600064) (hE : E.val = 1024 * (t.val / 49) + e.val) :
    (Edge.iblk V c 1 t : S1x1024.Idx → BitVec 32) (ix2 (0 : Fin 1) e) = darr V c (ix2 (0 : Fin 1) E) :=
  (dst_block V c t e).trans (congrArg (fun R : Fin 600064 => (V c main_v7 : S1x600064.Idx → BitVec 32) (ix2 (0 : Fin 1) R)) (Fin.ext hE.symm))

theorem xblk_at (c : Dev nD) (t : Fin cfg0.N) (j : Fin 128) (n : Fin 1024) (R : Fin 50176) (hR : R.val = 1024 * (t.val % 49) + n.val) :
    (Edge.iblk V c 2 t : S1024x128.Idx → EReal) (ix2 n j) = xarr V c (ix2 R j) :=
  (node_block V c t n j).trans (congrArg (fun R : Fin 50176 => (V c main_v8 : S50176x128.Idx → EReal) (ix2 R j)) (Fin.ext hR.symm))

theorem acc0_inv (c : Dev nD) : ∀ (n : ℕ) (hn : n < cfg0.N) (e : Fin 1024) (j : Fin 128) (E : Fin 600064), E.val = 1024 * (n / 49) + e.val →
    acc0 V c n hn (ix2 e j) = partRow (xarr V c) (sarr V c (ix2 (0 : Fin 1) E)) (n % 49 + 1) j := by
  intro n
  induction n using Nat.strong_induction_on with
  | _ n ih =>
    intro hn e j E hE
    have hN : n < 28714 := lt_of_lt_of_eq hn N_0
    have hk : n % 49 < 49 := Nat.mod_lt _ (by omega)
    by_cases h0 : n % 49 = 0
    · refine (congrFun (acc0_first V c ⟨n, hn⟩ h0) (ix2 e j)).trans ?_
      refine acc_point7 (xarr V c) (grid0.coords ⟨n, hn⟩) (Edge.iblk V c 0 ⟨n, hn⟩) (Edge.iblk V c 2 ⟨n, hn⟩) (k0_pay3 (F := Ideal)) e j
        (sarr V c (ix2 (0 : Fin 1) E)) (n % 49) hk (Edge.coord_inner ⟨n, hn⟩) (sblk_at V c ⟨n, hn⟩ e E hE) (xblk_at V c ⟨n, hn⟩ j) ?_
      rw [pay3_apply, h0, partRow_zero]
    · refine (congrFun (acc0_step V c ⟨n, hn⟩ h0) (ix2 e j)).trans ?_
      refine acc_point7 (xarr V c) (grid0.coords ⟨n, hn⟩) (Edge.iblk V c 0 ⟨n, hn⟩) (Edge.iblk V c 2 ⟨n, hn⟩)
        (acc0 V c (n - 1) (Nat.lt_of_le_of_lt (Nat.sub_le _ _) hn)) e j
        (sarr V c (ix2 (0 : Fin 1) E)) (n % 49) hk (Edge.coord_inner ⟨n, hn⟩) (sblk_at V c ⟨n, hn⟩ e E hE) (xblk_at V c ⟨n, hn⟩ j) ?_
      have hp := ih (n - 1) (by omega) (Nat.lt_of_le_of_lt (Nat.sub_le _ _) hn) e j E (by omega)
      rw [show (n - 1) % 49 + 1 = n % 49 from by omega] at hp
      exact hp

theorem acc1_inv (c : Dev nD) : ∀ (n : ℕ) (hn : n < cfg0.N) (e : Fin 1024) (j : Fin 128) (E : Fin 600064), E.val = 1024 * (n / 49) + e.val →
    acc1 V c n hn (ix2 e j) = partRow (xarr V c) (darr V c (ix2 (0 : Fin 1) E)) (n % 49 + 1) j := by
  intro n
  induction n using Nat.strong_induction_on with
  | _ n ih =>
    intro hn e j E hE
    have hN : n < 28714 := lt_of_lt_of_eq hn N_0
    have hk : n % 49 < 49 := Nat.mod_lt _ (by omega)
    by_cases h0 : n % 49 = 0
    · refine (congrFun (acc1_first V c ⟨n, hn⟩ h0) (ix2 e j)).trans ?_
      refine acc_point8 (xarr V c) (grid0.coords ⟨n, hn⟩) (Edge.iblk V c 1 ⟨n, hn⟩) (Edge.iblk V c 2 ⟨n, hn⟩) (k0_pay4 (F := Ideal)) e j
        (darr V c (ix2 (0 : Fin 1) E)) (n % 49) hk (Edge.coord_inner ⟨n, hn⟩) (dblk_at V c ⟨n, hn⟩ e E hE) (xblk_at V c ⟨n, hn⟩ j) ?_
      rw [pay4_apply, h0, partRow_zero]
    · refine (congrFun (acc1_step V c ⟨n, hn⟩ h0) (ix2 e j)).trans ?_
      refine acc_point8 (xarr V c) (grid0.coords ⟨n, hn⟩) (Edge.iblk V c 1 ⟨n, hn⟩) (Edge.iblk V c 2 ⟨n, hn⟩)
        (acc1 V c (n - 1) (Nat.lt_of_le_of_lt (Nat.sub_le _ _) hn)) e j
        (darr V c (ix2 (0 : Fin 1) E)) (n % 49) hk (Edge.coord_inner ⟨n, hn⟩) (dblk_at V c ⟨n, hn⟩ e E hE) (xblk_at V c ⟨n, hn⟩ j) ?_
      have hp := ih (n - 1) (by omega) (Nat.lt_of_le_of_lt (Nat.sub_le _ _) hn) e j E (by omega)
      rw [show (n - 1) % 49 + 1 = n % 49 from by omega] at hp
      exact hp

theorem acc0_last (c : Dev nD) (t : Fin cfg0.N) (h1 : t.val % 49 = 48) (e : Fin 1024) (j : Fin 128) (E : Fin 600064)
    (hE : E.val = 1024 * (t.val / 49) + e.val) :
    acc0 V c t.val t.isLt (ix2 e j) = padRow (xarr V c) (sarr V c (ix2 (0 : Fin 1) E)) j := by
  rw [acc0_inv V c t.val t.isLt e j E hE, h1]
  exact partRow_full _ _ _

theorem acc1_last (c : Dev nD) (t : Fin cfg0.N) (h1 : t.val % 49 = 48) (e : Fin 1024) (j : Fin 128) (E : Fin 600064)
    (hE : E.val = 1024 * (t.val / 49) + e.val) :
    acc1 V c t.val t.isLt (ix2 e j) = padRow (xarr V c) (darr V c (ix2 (0 : Fin 1) E)) j := by
  rw [acc1_inv V c t.val t.isLt e j E hE, h1]
  exact partRow_full _ _ _

end Cert.KernelIdeal.EdgeValue

end
-- ==== Proof.EdgeArray.lean ====
import proofs.«410833_j1056561954999_1_alg».proof.Proof.KI_EdgeFrame
import proofs.«410833_j1056561954999_1_alg».proof.Proof.EdgePayload
import proofs.«410833_j1056561954999_1_alg».proof.Proof.PaddedSpec
import proofs.«410833_j1056561954999_1_alg».proof.Proof.EdgeAcc
import Idealize.ShloMosaic.Lib.Pipeline.Value

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem
open Idealize.ShloMosaic.Pipeline (Dat)

theorem msg_entry (a b : Vec Ideal S1024x128 .f32) (W₁ W₂ : Vec Ideal S128x128 .f32) (b₁ b₂ : Vec Ideal S128 .f32) (e : Fin 1024) (j : Fin 128)
    (sp dp : (⟨2, ![1, 600064]⟩ : Shape).Idx → BitVec 32) (xp : (⟨2, ![50176, 128]⟩ : Shape).Idx → EReal)
    (W₁' : (⟨2, ![128, 128]⟩ : Shape).Idx → EReal) (b₁' : (⟨1, ![128]⟩ : Shape).Idx → EReal)
    (W₂' : (⟨2, ![128, 128]⟩ : Shape).Idx → EReal) (b₂' : (⟨1, ![128]⟩ : Shape).Idx → EReal) (E : Fin 600064)
    (ha : ∀ k' : Fin 128, a (ix2 e k') = Cert.PaddedSpec.padRow xp (sp (ix2 (0 : Fin 1) E)) k')
    (hb : ∀ k' : Fin 128, b (ix2 e k') = Cert.PaddedSpec.padRow xp (dp (ix2 (0 : Fin 1) E)) k')
    (hW₁ : W₁ = W₁') (hb₁ : b₁ = b₁') (hW₂ : W₂ = W₂') (hb₂ : b₂ = b₂') :
    k0_pay2 (F := Ideal) a b W₁ W₂ b₁ b₂ (ix2 e j) = Cert.PaddedSpec.msgArray sp dp xp W₁' b₁' W₂' b₂' (ix2 E j) := by
  subst hW₁ hb₁ hW₂ hb₂
  rw [pay2_apply]
  simp only [ha, hb]
  rfl

variable (V : (c : Dev nD) → (b : Ref sig .tc) → Buf (Elt Ideal) ((c : Thread nD τ).loc b))

abbrev msgs (c : Dev nD) : S600064x128.Idx → EReal :=
  Cert.PaddedSpec.msgArray (V c main_v5) (V c main_v7) (V c main_v8) (V c main_arg2) (V c main_arg3) (V c main_arg4) (V c main_arg5)

theorem out_entry (c : Dev nD) (t : Fin cfg0.N) (h1 : t.val % 49 = 48) (e : Fin 1024) (j : Fin 128) (E : Fin 600064)
    (hE : E.val = 1024 * (t.val / 49) + e.val) :
    outb V c t.val t.isLt (ix2 e j) = msgs V c (ix2 E j) := by
  refine (congrFun (outb_last V c t h1) (ix2 e j)).trans ?_
  exact msg_entry (acc0 V c t.val t.isLt) (acc1 V c t.val t.isLt) (Edge.iblk V c 3 t) (Edge.iblk V c 5 t) (Edge.iblk V c 4 t) (Edge.iblk V c 6 t) e j
    (V c main_v5) (V c main_v7) (V c main_v8) (V c main_arg2) (V c main_arg3) (V c main_arg4) (V c main_arg5) E
    (fun k' => acc0_last V c t h1 e k' E hE) (fun k' => acc1_last V c t h1 e k' E hE)
    (w1_block V c t) (b1_block V c t) (w2_block V c t) (b2_block V c t)

theorem out_at (c : Dev nD) (t : Fin cfg0.N) (h1 : t.val % 49 = 48) (y : S1024x128.Idx) (i : S600064x128.Idx)
    (h0 : (i 0).val = 1024 * (t.val / 49) + (y 0).val) (hj : (i 1).val = (y 1).val) :
    outb V c t.val t.isLt y = msgs V c i := by
  obtain ⟨e, j, rfl⟩ : ∃ (e : Fin 1024) (j : Fin 128), y = ix2 e j := ⟨y 0, y 1, eq_ix2 y⟩
  obtain ⟨E, j', rfl⟩ : ∃ (E : Fin 600064) (j' : Fin 128), i = ix2 E j' := ⟨i 0, i 1, eq_ix2 i⟩
  have hjj : j' = j := Fin.ext hj
  rw [hjj]
  exact out_entry V c t h1 e j E h0

theorem flushed_eq (c : Dev nD) (t : Fin cfg0.N) (hf : (cfg0.win 7).flush t = true) :
    (Edge.dat V c).flushed 7 t = ((cfg0.win 7).blk t).view.read (Elt Ideal) (msgs V c) := by
  have h1 : t.val % 49 = 48 := (Edge.flush_7_iff t).mp hf
  show (cfg0.win 7).cut (grid0.coords t) ((Edge.dat V c).after 7 t) = _
  rw [Edge.after_7]
  funext y
  rw [View.read_apply]
  show outb V c t.val t.isLt ((cfg0.win 7).xinj (grid0.coords t) y) = msgs V c (((cfg0.win 7).blk t).view.emb y)
  refine out_at V c t h1 ((cfg0.win 7).xinj (grid0.coords t) y) (((cfg0.win 7).blk t).view.emb y) ?_ ?_
  · show win0_7.index t 0 * 1024 + 1 * (y 0).val = 1024 * (t.val / 49) + (y 0).val
    rw [Edge.index_7]
    show t.val / 49 * 1024 + 1 * (y 0).val = 1024 * (t.val / 49) + (y 0).val
    omega
  · show win0_7.index t 1 * 128 + 1 * (y 1).val = (y 1).val
    rw [Edge.index_7]
    show 0 * 128 + 1 * (y 1).val = (y 1).val
    omega

theorem mem_blk7 (t : Fin cfg0.N) (i : S600064x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v9).slice (win0_7.rect t)).set ↔ _
  rw [View.set_slice_whole, Rect.mem_set_unit]
  exact Iff.rfl

theorem cover (i : S600064x128.Idx) : ∃ t : Fin cfg0.N, (cfg0.win 7).flush t = true ∧ i ∈ ((cfg0.win 7).blk t).view.set := by
  have hi0 : (i 0).val < 600064 := (i 0).isLt
  have hi1 : (i 1).val < 128 := (i 1).isLt
  have hN : cfg0.N = 28714 := N_0
  obtain ⟨t, ht⟩ : ∃ t : Fin cfg0.N, t.val = 49 * ((i 0).val / 1024) + 48 := ⟨⟨49 * ((i 0).val / 1024) + 48, by rw [hN]; omega⟩, rfl⟩
  refine ⟨t, (Edge.flush_7_iff t).mpr (by omega), ?_⟩
  rw [mem_blk7]
  intro a
  match a with
  | ⟨0, _⟩ =>
    show win0_7.index t 0 * 1024 ≤ (i 0).val ∧ (i 0).val < win0_7.index t 0 * 1024 + 1024
    rw [Edge.index_7]
    show t.val / 49 * 1024 ≤ (i 0).val ∧ (i 0).val < t.val / 49 * 1024 + 1024
    omega
  | ⟨1, _⟩ =>
    show win0_7.index t 1 * 128 ≤ (i 1).val ∧ (i 1).val < win0_7.index t 1 * 128 + 128
    rw [Edge.index_7]
    show 0 * 128 ≤ (i 1).val ∧ (i 1).val < 0 * 128 + 128
    omega

theorem edge_array (c : Dev nD) :
    ((Edge.dat V c).arrAt 7 cfg0.N : S600064x128.Idx → EReal)
      = Cert.PaddedSpec.msgArray (V c main_v5) (V c main_v7) (V c main_v8) (V c main_arg2) (V c main_arg3) (V c main_arg4) (V c main_arg5) :=
  (Edge.dat V c).arrAt_eq_of_cover 7 (msgs V c) (fun t hf => flushed_eq V c t hf) cover

end Cert.KernelIdeal.EdgeValue

end
-- ==== Proof.NodePayload.lean ====
import proofs.«410833_j1056561954999_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeValue

open Cert.KernelIdeal Cert.KernelIdeal.Gen
open Idealize.ShloMosaic Idealize.ShloMosaic.ValueIdx

theorem onehot_word (x y : BitVec 32) {d : Decidable (x = y)} :
    (FloatOps.sitofp (F := Ideal) .f32 ((IntOp.cmpi .eq x y).setWidth 32) : Ideal .f32) = @ite EReal (x = y) d 1 0 := by
  show ((((IntOp.cmpi .eq x y).setWidth 32).toInt : ℝ) : EReal) = _
  by_cases h : x = y
  · rw [if_pos h]
    subst h
    have hc : IntOp.cmpi .eq x x = 1#1 := by simp [IntOp.cmpi]
    rw [hc]
    have h1 : ((1#1 : BitVec 1).setWidth 32).toInt = 1 := by decide
    rw [h1, Int.cast_one, EReal.coe_one]
  · rw [if_neg h]
    have hc : IntOp.cmpi .eq x y = 0#1 := by
      show BitVec.ofBool (x == y) = 0#1
      rw [beq_eq_false_iff_ne.mpr h]; rfl
    rw [hc]
    have h0 : ((0#1 : BitVec 1).setWidth 32).toInt = 0 := by decide
    rw [h0, Int.cast_zero, EReal.coe_zero]

theorem entry_eq {s : Shape} (u v : IVec s 32) (h1 : 1 < 32) (hb : FTy.bits .bf16 < FTy.bits .f32) (i : s.Idx)
    (x y : BitVec 32) (hu : u i = x) (hv : v i = y) {d : Decidable (x = y)} :
    (truncf .bf16 (sitofp (F := Ideal) .f32 (extui 32 (cmpi .eq u v) h1)) hb : FVec Ideal s .bf16) i
      = @ite EReal (x = y) d 1 0 := by
  subst hu hv
  exact onehot_word (u i) (v i)

theorem srow_apply {α : Type} (s : S1x1024.Idx → α) (h h' : S1x1024.ShapeCasts S1x1024) (hB : S1x1024.Broadcasts S1024x1024)
    (n e : Fin 1024) :
    broadcastTo S1024x1024 (shapeCast S1x1024 (shapeCast S1x1024 s h) h') hB (ix2 n e) = s (ix2 (0 : Fin 1) e) := by
  rw [shapeCast_self, shapeCast_self]
  exact broadcastTo_1b_ab_apply s hB n e

theorem iota_off_apply (h : S1024x1024.Iotas .tc 32 [0]) (c : BitVec 32) (n e : Fin 1024) :
    addi (iota .tc S1024x1024 32 [0] h) (broadcast S1024x1024 c) (ix2 n e) = BitVec.ofNat 32 n.val + c :=
  congrArg (· + c) (iota_single_apply .tc S1024x1024 32 0 h (ix2 n e))

theorem bias_apply {α : Type} (c : S128.Idx → α) (h₁ : S128.ShapeCasts S1x128) (h₂ : S1x128.Broadcasts S1024x128)
    (n : Fin 1024) (j : Fin 128) :
    broadcastTo S1024x128 (shapeCast S1x128 c h₁) h₂ (ix2 n j) = c (ix1 j) :=
  (broadcastTo_1b_ab_apply _ h₂ n j).trans (shapeCast_a_1a_apply c h₁ 0 j)

theorem ofBits_zero : (Scalar.ofBits .f32 0x00000000#32 : Ideal .f32) = 0 := Ideal.ofBits_zero_f32

theorem lhsN_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem lhsN_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsN_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsN_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

theorem matmulN_apply (L : FVec Ideal S1024x1024 .bf16) (R : FVec Ideal S1024x128 .bf16) (n : Fin 1024) (j : Fin 128) :
    matmul dot_S1024x1024_S1024x128_S1024x128_1_0_0_1_n_n none L R (constant (F := Ideal) S1024x128 .f32 0x00000000#32) (ix2 n j)
      = ∑ e : Fin 1024, L (ix2 n e) * R (ix2 e j) := by
  refine (Ideal.matmul_constant_zero_apply dot_S1024x1024_S1024x128_S1024x128_1_0_0_1_n_n none L R (ix2 n j)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 n j)
      ((contrEquiv1 dot_S1024x1024_S1024x128_S1024x128_1_0_0_1_n_n 1024 rfl rfl).symm k) = ix2 n k :=
    funext fun a => Fin.ext (by
      match a with
      | ⟨0, _⟩ => exact lhsN_0 _ _
      | ⟨1, _⟩ => exact (lhsN_1 _ _).trans hk)
  have er : dot_S1024x1024_S1024x128_S1024x128_1_0_0_1_n_n.rhsIdx (ix2 n j)
      ((contrEquiv1 dot_S1024x1024_S1024x128_S1024x128_1_0_0_1_n_n 1024 rfl rfl).symm k) = ix2 k j :=
    funext fun a => Fin.ext (by
      match a with
      | ⟨0, _⟩ => exact (rhsN_0 _ _).trans hk
      | ⟨1, _⟩ => exact rhsN_1 _ _)
  rw [el, er]

theorem lhs10_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs10_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs10_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs10_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

theorem matmul10_apply (L : FVec Ideal S1024x128 .bf16) (R : FVec Ideal S128x128 .bf16) (n : Fin 1024) (j : Fin 128) :
    matmul dot_S1024x128_S128x128_S1024x128_1_0_0_1_n_n none L R (constant (F := Ideal) S1024x128 .f32 0x00000000#32) (ix2 n j)
      = ∑ k : Fin 128, L (ix2 n k) * R (ix2 k j) := by
  refine (Ideal.matmul_constant_zero_apply dot_S1024x128_S128x128_S1024x128_1_0_0_1_n_n none L R (ix2 n j)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n j)
      ((contrEquiv1 dot_S1024x128_S128x128_S1024x128_1_0_0_1_n_n 128 rfl rfl).symm k) = ix2 n k :=
    funext fun a => Fin.ext (by
      match a with
      | ⟨0, _⟩ => exact lhs10_0 _ _
      | ⟨1, _⟩ => exact (lhs10_1 _ _).trans hk)
  have er : dot_S1024x128_S128x128_S1024x128_1_0_0_1_n_n.rhsIdx (ix2 n j)
      ((contrEquiv1 dot_S1024x128_S128x128_S1024x128_1_0_0_1_n_n 128 rfl rfl).symm k) = ix2 k j :=
    funext fun a => Fin.ext (by
      match a with
      | ⟨0, _⟩ => exact (rhs10_0 _ _).trans hk
      | ⟨1, _⟩ => exact rhs10_1 _ _)
  rw [el, er]

theorem pay1_apply (i : S1024x128.Idx) : k1_pay1 (F := Ideal) i = 0 := by
  unfold k1_pay1
  exact (congrFun (shapeCast_self _ _) i).trans Ideal.ofBits_zero_f32

theorem pay2_apply (i : grid1.Coords) (s : Vec Ideal S1x1024 .i32) (M : Vec Ideal S1024x128 .bf16) (a : Vec Ideal S1024x128 .f32) (n : Fin 1024) (j : Fin 128) :
    k1_pay2 (F := Ideal) i s M a (ix2 n j)
      = a (ix2 n j) + ∑ e : Fin 1024,
          (if s (ix2 (0 : Fin 1) e) = BitVec.ofNat 32 n.val + BitVec.ofNat 32 (i 0).val * 1024#32 then (1 : EReal) else 0) * M (ix2 e j) := by
  unfold k1_pay2
  refine (congrFun (shapeCast_self _ _) (ix2 n j)).trans ?_
  refine (addf_apply _ _ _).trans ?_
  congr 1
  refine (matmulN_apply _ _ n j).trans ?_
  refine Finset.sum_congr rfl fun e _ => ?_
  congr 1
  · exact entry_eq _ _ _ _ (ix2 n e) _ _ (srow_apply s _ _ _ n e) (iota_off_apply _ _ n e)
  · exact congrFun (shapeCast_self M _) (ix2 e j)

theorem pay3_apply (X a : Vec Ideal S1024x128 .f32) (Atop Abot A₂ : Vec Ideal S128x128 .f32) (c₁ c₂ : Vec Ideal S128 .f32) (n : Fin 1024) (j : Fin 128) :
    k1_pay3 (F := Ideal) X a Atop Abot A₂ c₁ c₂ (ix2 n j)
      = (∑ k : Fin 128, max (((∑ k' : Fin 128, X (ix2 n k') * Atop (ix2 k' k)) + (∑ k' : Fin 128, a (ix2 n k') * Abot (ix2 k' k))) + c₁ (ix1 k)) 0 * A₂ (ix2 k j)) + c₂ (ix1 j) := by
  unfold k1_pay3
  simp only [shapeCast_self, truncf_apply, addf_apply, maximumf_apply, broadcast_apply, matmul10_apply, bias_apply, ofBits_zero]

end Cert.KernelIdeal.NodeValue

end
-- ==== Proof.NodePieces.lean ====
import proofs.«410833_j1056561954999_1_alg».proof.Proof.KI_NodeFrame
import Idealize.ShloMosaic.Lib.Pipeline.Value
import Idealize.ShloMosaic.Lib.ValueIdx

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

theorem hz : (![0, 0] : Fin 2 → Nat) = fun _ => 0 := funext fun a => match a with | ⟨0, _⟩ => rfl | ⟨1, _⟩ => rfl

theorem hz1 : (![0] : Fin 1 → Nat) = fun _ => 0 := funext fun a => match a with | ⟨0, _⟩ => rfl

abbrev rowsLo (w : Vec F S256x128 .f32) : Vec F S128x128 .f32 :=
  View.ld w (Rect.unit (s := S256x128) ![0, 0] S128x128.size inb_S256x128_S128x128_0_0)

abbrev rowsHi (w : Vec F S256x128 .f32) : Vec F S128x128 .f32 :=
  View.ld w (Rect.unit (s := S256x128) ![128, 0] S128x128.size inb_S256x128_S128x128_128_0)

theorem rowsLo_apply (w : Vec F S256x128 .f32) (k' : Fin 128) (k : Fin 128) :
    rowsLo w (ix2 k' k) = w (ix2 ⟨k'.val, Nat.lt_of_lt_of_le k'.isLt (by decide)⟩ k) :=
  congrArg w (funext fun a => match a with
    | ⟨0, _⟩ => Fin.ext (by show 0 + 1 * k'.val = k'.val; omega)
    | ⟨1, _⟩ => Fin.ext (by show 0 + 1 * k.val = k.val; omega))

theorem rowsHi_apply (w : Vec F S256x128 .f32) (k' : Fin 128) (k : Fin 128) :
    rowsHi w (ix2 k' k) = w (ix2 ⟨128 + k'.val, by have := k'.isLt; omega⟩ k) :=
  congrArg w (funext fun a => match a with
    | ⟨0, _⟩ => Fin.ext (by show 128 + 1 * k'.val = 128 + k'.val; omega)
    | ⟨1, _⟩ => Fin.ext (by show 0 + 1 * k.val = k.val; omega))

theorem sout_First_0_eq (c : Dev nD) (i : grid1.Coords) (a : Call) (hc0 : condFirst i) (hc1 : ¬condLast i)
    (x : Blocks F) :
    sout_First_0 c i a hc0 hc1 x = k1_pay2 i x.x0 x.x1 (k1_pay1 (F := F)) := by
  unfold sout_First_0
  rw [View.read_writes_eq_canon _ _ _ (scover_First_0 c i a hc0 hc1 x)]
  unfold runFirst
  dsimp only
  sl_unfold_words
  rw [View.canon_cons_unit_zero (S := S1024x128) hz, View.readCov_unit_zero (S := S1024x128) _ hz]
  simp only [View.readAt_eq_ld, a.harg2.read_unread, a.harg3.read_unread, View.ld_unit_zero (S := S1x1024) hz, View.ld_unit_zero (S := S1024x128) hz]

theorem sout_Mid_0_eq (c : Dev nD) (i : grid1.Coords) (a : Call) (hc0 : ¬condFirst i) (hc1 : ¬condLast i)
    (x : Blocks F) (xs0 : Vec F S1024x128 .f32) :
    sout_Mid_0 c i a hc0 hc1 x xs0 = k1_pay2 i x.x0 x.x1 xs0 := by
  unfold sout_Mid_0
  rw [View.read_writes_eq_canon _ _ _ (scover_Mid_0 c i a hc0 hc1 x xs0)]
  unfold runMid
  dsimp only
  sl_unfold_words
  rw [View.canon_unit_zero (S := S1024x128) hz]
  simp only [View.readAt_eq_ld, a.harg2.read_unread, a.harg3.read_unread, a.harg10.read_unread, View.ld_unit_zero (S := S1x1024) hz, View.ld_unit_zero (S := S1024x128) hz]

theorem sout_Last_0_eq (c : Dev nD) (i : grid1.Coords) (a : Call) (hc0 : ¬condFirst i) (hc1 : condLast i)
    (x : Blocks F) (xs0 : Vec F S1024x128 .f32) :
    sout_Last_0 c i a hc0 hc1 x xs0 = k1_pay2 i x.x0 x.x1 xs0 := by
  unfold sout_Last_0
  rw [View.read_writes_eq_canon _ _ _ (scover_Last_0 c i a hc0 hc1 x xs0)]
  unfold runLast
  dsimp only
  sl_unfold_words
  rw [View.canon_unit_zero (S := S1024x128) hz]
  simp only [View.readAt_eq_ld, a.harg2.read_unread, a.harg3.read_unread, a.harg10.read_unread, View.ld_unit_zero (S := S1x1024) hz, View.ld_unit_zero (S := S1024x128) hz]

theorem out_Last_eq (c : Dev nD) (i : grid1.Coords) (a : Call) (hc0 : ¬condFirst i) (hc1 : condLast i)
    (x : Blocks F) (xs0 : Vec F S1024x128 .f32) :
    out_Last c i a hc0 hc1 x xs0 = k1_pay3 x.x2 (k1_pay2 i x.x0 x.x1 xs0) (rowsLo x.x3) (rowsHi x.x3) x.x5 x.x4 x.x6 := by
  unfold out_Last
  rw [View.read_writes_eq_canon _ _ _ (cover_Last c i a hc0 hc1 x xs0)]
  unfold runLast
  dsimp only
  sl_unfold_words
  rw [View.canon_unit_zero (S := S1024x128) hz]
  simp only [View.readAt_eq_ld, a.harg2.read_unread, a.harg3.read_unread, a.harg4.read_unread, a.harg5.read_unread, a.harg6.read_unread, a.harg7.read_unread, a.harg8.read_unread, a.harg10.read_unread, View.readCov_unit_zero (S := S1024x128) _ hz, View.ld_unit_zero (S := S1x1024) hz, View.ld_unit_zero (S := S1024x128) hz, View.ld_unit_zero (S := S128x128) hz, View.ld_unit_zero (S := S128) hz1]

end Cert.KernelIdeal.Node

end
-- ==== Proof.NodeBlocks.lean ====
import proofs.«410833_j1056561954999_1_alg».proof.Proof.KI_NodeShared
import Idealize.ShloMosaic.Lib.ValueIdx
import Idealize.ShloMosaic.Lib.Pipeline.Value

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem

theorem index_0 (t : Fin grid1.N) : win1_0.index t = ![0, t.val % 586] := by
  funext a
  match a with
  | ⟨0, _⟩ => rfl
  | ⟨1, _⟩ =>
    show (BitVec.ofNat 32 (grid1.coords t 1).val).toNat = t.val % 586
    rw [Node.coord_inner, BitVec.toNat_ofNat]
    exact Nat.mod_eq_of_lt (by omega)

theorem index_1 (t : Fin grid1.N) : win1_1.index t = ![t.val % 586, 0] := by
  funext a
  match a with
  | ⟨0, _⟩ =>
    show (BitVec.ofNat 32 (grid1.coords t 1).val).toNat = t.val % 586
    rw [Node.coord_inner, BitVec.toNat_ofNat]
    exact Nat.mod_eq_of_lt (by omega)
  | ⟨1, _⟩ => rfl

theorem index_2 (t : Fin grid1.N) : win1_2.index t = ![t.val / 586, 0] := by
  have h : t.val < 28714 := lt_of_lt_of_eq t.isLt N_1
  funext a
  match a with
  | ⟨0, _⟩ =>
    show (BitVec.ofNat 32 (grid1.coords t 0).val).toNat = t.val / 586
    rw [Node.coord_outer, BitVec.toNat_ofNat]
    exact Nat.mod_eq_of_lt (by omega)
  | ⟨1, _⟩ => rfl

variable (V : (c : Dev nD) → (b : Ref sig .tc) → Buf (Elt Ideal) ((c : Thread nD τ).loc b))

theorem src_block (c : Dev nD) (t : Fin cfg1.N) (e : Fin 1024) :
    (Node.iblk V c 0 t : S1x1024.Idx → BitVec 32) (ix2 (0 : Fin 1) e)
      = (V c main_v5 : S1x600064.Idx → BitVec 32) (ix2 (0 : Fin 1) (⟨1024 * (t.val % 586) + e.val, by have h : t.val < 28714 := lt_of_lt_of_eq t.isLt N_1; have := e.isLt; omega⟩ : Fin 600064)) := by
  unfold Node.iblk
  rw [View.read_apply]
  show (V c main_v5 : S1x600064.Idx → BitVec 32) _ = _
  congr 1
  funext a
  apply Fin.ext
  match a with
  | ⟨0, _⟩ => show win1_0.index t 0 * 1 + 1 * (0 : Fin 1).val = 0; rw [index_0]; rfl
  | ⟨1, _⟩ => show win1_0.index t 1 * 1024 + 1 * e.val = 1024 * (t.val % 586) + e.val; rw [index_0]; show t.val % 586 * 1024 + 1 * e.val = _; omega

theorem msg_block (c : Dev nD) (t : Fin cfg1.N) (e : Fin 1024) (j : Fin 128) :
    (Node.iblk V c 1 t : S1024x128.Idx → EReal) (ix2 e j)
      = (V c main_v9 : S600064x128.Idx → EReal) (ix2 (⟨1024 * (t.val % 586) + e.val, by have h : t.val < 28714 := lt_of_lt_of_eq t.isLt N_1; have := e.isLt; omega⟩ : Fin 600064) j) := by
  unfold Node.iblk
  rw [View.read_apply]
  show (V c main_v9 : S600064x128.Idx → EReal) _ = _
  congr 1
  funext a
  apply Fin.ext
  match a with
  | ⟨0, _⟩ => show win1_1.index t 0 * 1024 + 1 * e.val = 1024 * (t.val % 586) + e.val; rw [index_1]; show t.val % 586 * 1024 + 1 * e.val = _; omega
  | ⟨1, _⟩ => show win1_1.index t 1 * 128 + 1 * j.val = j.val; rw [index_1]; show 0 * 128 + 1 * j.val = _; omega

theorem node_block (c : Dev nD) (t : Fin cfg1.N) (n : Fin 1024) (j : Fin 128) :
    (Node.iblk V c 2 t : S1024x128.Idx → EReal) (ix2 n j)
      = (V c main_v8 : S50176x128.Idx → EReal) (ix2 (⟨1024 * (t.val / 586) + n.val, by have h : t.val < 28714 := lt_of_lt_of_eq t.isLt N_1; have := n.isLt; omega⟩ : Fin 50176) j) := by
  unfold Node.iblk
  rw [View.read_apply]
  show (V c main_v8 : S50176x128.Idx → EReal) _ = _
  congr 1
  funext a
  apply Fin.ext
  match a with
  | ⟨0, _⟩ => show win1_2.index t 0 * 1024 + 1 * n.val = 1024 * (t.val / 586) + n.val; rw [index_2]; show t.val / 586 * 1024 + 1 * n.val = _; omega
  | ⟨1, _⟩ => show win1_2.index t 1 * 128 + 1 * j.val = j.val; rw [index_2]; show 0 * 128 + 1 * j.val = _; omega

theorem a_block (c : Dev nD) (t : Fin cfg1.N) : (Node.iblk V c 3 t : S256x128.Idx → EReal) = V c main_arg6 := by
  funext y
  unfold Node.iblk
  rw [View.read_apply]
  show (V c main_arg6 : S256x128.Idx → EReal) _ = _
  congr 1
  funext a
  apply Fin.ext
  match a with
  | ⟨0, _⟩ => show 0 * 256 + 1 * (y 0).val = (y 0).val; omega
  | ⟨1, _⟩ => show 0 * 128 + 1 * (y 1).val = (y 1).val; omega
theorem c1_block (c : Dev nD) (t : Fin cfg1.N) : (Node.iblk V c 4 t : S128.Idx → EReal) = V c main_arg7 := by
  funext y
  unfold Node.iblk
  rw [View.read_apply]
  show (V c main_arg7 : S128.Idx → EReal) _ = _
  congr 1
  funext a
  apply Fin.ext
  match a with
  | ⟨0, _⟩ => show 0 * 128 + 1 * (y 0).val = (y 0).val; omega
theorem a2_block (c : Dev nD) (t : Fin cfg1.N) : (Node.iblk V c 5 t : S128x128.Idx → EReal) = V c main_arg8 := by
  funext y
  unfold Node.iblk
  rw [View.read_apply]
  show (V c main_arg8 : S128x128.Idx → EReal) _ = _
  congr 1
  funext a
  apply Fin.ext
  match a with
  | ⟨0, _⟩ => show 0 * 128 + 1 * (y 0).val = (y 0).val; omega
  | ⟨1, _⟩ => show 0 * 128 + 1 * (y 1).val = (y 1).val; omega
theorem c2_block (c : Dev nD) (t : Fin cfg1.N) : (Node.iblk V c 6 t : S128.Idx → EReal) = V c main_arg9 := by
  funext y
  unfold Node.iblk
  rw [View.read_apply]
  show (V c main_arg9 : S128.Idx → EReal) _ = _
  congr 1
  funext a
  apply Fin.ext
  match a with
  | ⟨0, _⟩ => show 0 * 128 + 1 * (y 0).val = (y 0).val; omega

end Cert.KernelIdeal.NodeValue

end
-- ==== Proof.NodeCollapse.lean ====
import proofs.«410833_j1056561954999_1_alg».proof.Proof.PaddedSpec
import Mathlib.Algebra.BigOperators.Fin
import Mathlib.Data.Fintype.BigOperators
import Mathlib.Logic.Equiv.Fin.Basic

noncomputable section

namespace Cert.KernelIdeal.NodeValue

open Idealize.ShloMosaic Idealize.ShloMosaic.ValueIdx

def srcAt (sp : (⟨2, ![1, 600064]⟩ : Shape).Idx → BitVec 32) (E : ℕ) : BitVec 32 :=
  if h : E < 600064 then sp (ix2 (0 : Fin 1) (⟨E, h⟩ : Fin 600064)) else 0#32

def msgAt (M : (⟨2, ![600064, 128]⟩ : Shape).Idx → EReal) (E : ℕ) (j : Fin 128) : EReal :=
  if h : E < 600064 then M (ix2 (⟨E, h⟩ : Fin 600064) j) else 0

def blockTerm (sp : (⟨2, ![1, 600064]⟩ : Shape).Idx → BitVec 32) (M : (⟨2, ![600064, 128]⟩ : Shape).Idx → EReal)
    (k : ℕ) (n : Fin 1024) (j : Fin 128) (s : ℕ) : EReal :=
  ∑ e : Fin 1024, (if srcAt sp (1024 * s + e.val) = BitVec.ofNat 32 n.val + BitVec.ofNat 32 k * 1024#32 then (1 : EReal) else 0)
    * msgAt M (1024 * s + e.val) j

theorem word_eq_iff (w : BitVec 32) (N : ℕ) (hN : N < 2147483648) : w = BitVec.ofNat 32 N ↔ w.toInt = (N : ℤ) := by
  have hn : (BitVec.ofNat 32 N).toNat = N := by
    rw [BitVec.toNat_ofNat]; exact Nat.mod_eq_of_lt (by omega)
  have hi : (BitVec.ofNat 32 N).toInt = (N : ℤ) := by
    rw [BitVec.toInt_eq_toNat_of_lt (by rw [hn]; omega), hn]
  constructor
  · intro h; rw [h, hi]
  · intro h; exact BitVec.eq_of_toInt_eq (h.trans hi.symm)

theorem node_word (k : ℕ) (n : Fin 1024) : BitVec.ofNat 32 n.val + BitVec.ofNat 32 k * 1024#32 = BitVec.ofNat 32 (1024 * k + n.val) := by
  show BitVec.ofNat 32 n.val + BitVec.ofNat 32 k * BitVec.ofNat 32 1024 = _
  rw [BitVec.ofNat_mul_ofNat, BitVec.ofNat_add_ofNat]
  congr 1
  omega

theorem blocks_sum (sp : (⟨2, ![1, 600064]⟩ : Shape).Idx → BitVec 32) (M : (⟨2, ![600064, 128]⟩ : Shape).Idx → EReal)
    (k : ℕ) (hk : k < 49) (n : Fin 1024) (j : Fin 128) :
    ∑ s ∈ Finset.range 586, blockTerm sp M k n j s
      = Cert.PaddedSpec.aggPad sp M (⟨1024 * k + n.val, by have := n.isLt; omega⟩ : Fin 50176) j := by
  have hn := n.isLt
  unfold Cert.PaddedSpec.aggPad
  rw [Finset.sum_range]
  rw [← Equiv.sum_comp (finProdFinEquiv : Fin 586 × Fin 1024 ≃ Fin 600064), Fintype.sum_prod_type]
  refine Finset.sum_congr rfl fun s _ => ?_
  unfold blockTerm
  refine Finset.sum_congr rfl fun e _ => ?_
  have hs := s.isLt
  have he := e.isLt
  have hE : 1024 * s.val + e.val < 600064 := by omega
  have eE : (⟨1024 * s.val + e.val, hE⟩ : Fin 600064) = (finProdFinEquiv : Fin 586 × Fin 1024 ≃ Fin 600064) (s, e) :=
    Fin.ext (by show 1024 * s.val + e.val = e.val + 1024 * s.val; omega)
  unfold srcAt msgAt
  rw [dif_pos hE, dif_pos hE, eE, node_word, ite_mul, one_mul, zero_mul]
  exact if_congr (word_eq_iff _ _ (by omega)) rfl rfl

end Cert.KernelIdeal.NodeValue

end
-- ==== Proof.NodeAcc.lean ====
import proofs.«410833_j1056561954999_1_alg».proof.Proof.KI_NodeFrame
import proofs.«410833_j1056561954999_1_alg».proof.Proof.NodePayload
import proofs.«410833_j1056561954999_1_alg».proof.Proof.NodePieces
import proofs.«410833_j1056561954999_1_alg».proof.Proof.NodeBlocks
import proofs.«410833_j1056561954999_1_alg».proof.Proof.NodeCollapse
import Idealize.ShloMosaic.Lib.Pipeline.Value

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev srcArr (c : Dev nD) : S1x600064.Idx → BitVec 32 := V c main_v5

abbrev msgArr (c : Dev nD) : S600064x128.Idx → EReal := V c main_v9

abbrev sblk (c : Dev nD) (t : Fin cfg1.N) : Vec Ideal S1x1024 .i32 := Node.iblk V c 0 t

abbrev mblk (c : Dev nD) (t : Fin cfg1.N) : Vec Ideal S1024x128 .bf16 := Node.iblk V c 1 t

theorem step_apply (c : Dev nD) (t : Fin cfg1.N) (a : Vec Ideal S1024x128 .f32) (n : Fin 1024) (j : Fin 128) :
    k1_pay2 (F := Ideal) (grid1.coords t) (sblk V c t) (mblk V c t) a (ix2 n j)
      = a (ix2 n j) + blockTerm (srcArr V c) (msgArr V c) (t.val / 586) n j (t.val % 586) := by
  have h : t.val < 28714 := lt_of_lt_of_eq t.isLt N_1
  refine (pay2_apply (grid1.coords t) (sblk V c t) (mblk V c t) a n j).trans ?_
  congr 1
  unfold blockTerm
  refine Finset.sum_congr rfl fun e _ => ?_
  have hE : 1024 * (t.val % 586) + e.val < 600064 := by have := e.isLt; omega
  have e1 : (sblk V c t) (ix2 (0 : Fin 1) e) = srcAt (srcArr V c) (1024 * (t.val % 586) + e.val) := by
    unfold srcAt; rw [dif_pos hE]; exact src_block V c t e
  have e2 : (mblk V c t) (ix2 e j) = msgAt (msgArr V c) (1024 * (t.val % 586) + e.val) j := by
    unfold msgAt; rw [dif_pos hE]; exact msg_block V c t e j
  rw [e1, e2, Node.coord_outer]

theorem acc_first (c : Dev nD) (t : Fin cfg1.N) (h0 : t.val % 586 = 0) :
    (Node.outsAt V c t.val t.isLt).2 = k1_pay2 (F := Ideal) (grid1.coords t) (sblk V c t) (mblk V c t) (k1_pay1 (F := Ideal)) := by
  have h1 : ¬t.val % 586 = 585 := by omega
  rw [Node.outsAt_First V c t h0 h1]
  dsimp only
  exact Node.sout_First_0_eq (F := Ideal) c (grid1.coords t) (Node.callAt t) ((Node.hcondFirst t).mpr h0) (fun h => h1 ((Node.hcondLast t).mp h)) (Node.blocksAt V c t)

theorem acc_next (c : Dev nD) (t : Fin cfg1.N) (h0 : ¬t.val % 586 = 0) :
    (Node.outsAt V c t.val t.isLt).2
      = k1_pay2 (F := Ideal) (grid1.coords t) (sblk V c t) (mblk V c t) (Node.outsAt V c (t.val - 1) (Nat.lt_of_le_of_lt (Nat.sub_le _ _) t.isLt)).2 := by
  by_cases h1 : t.val % 586 = 585
  · rw [Node.outsAt_Last V c t h0 h1]
    dsimp only
    exact Node.sout_Last_0_eq (F := Ideal) c (grid1.coords t) (Node.callAt t) (fun h => h0 ((Node.hcondFirst t).mp h)) ((Node.hcondLast t).mpr h1) (Node.blocksAt V c t) (Node.outsAt V c (t.val - 1) (Nat.lt_of_le_of_lt (Nat.sub_le _ _) t.isLt)).2
  · rw [Node.outsAt_Mid V c t h0 h1]
    dsimp only
    exact Node.sout_Mid_0_eq (F := Ideal) c (grid1.coords t) (Node.callAt t) (fun h => h0 ((Node.hcondFirst t).mp h)) (fun h => h1 ((Node.hcondLast t).mp h)) (Node.blocksAt V c t) (Node.outsAt V c (t.val - 1) (Nat.lt_of_le_of_lt (Nat.sub_le _ _) t.isLt)).2

theorem acc_eq (c : Dev nD) : ∀ (m : ℕ) (hm : m < cfg1.N) (n : Fin 1024) (j : Fin 128),
    ((Node.outsAt V c m hm).2 : S1024x128.Idx → EReal) (ix2 n j)
      = ∑ s ∈ Finset.range (m % 586 + 1), blockTerm (srcArr V c) (msgArr V c) (m / 586) n j s := by
  intro m
  induction m using Nat.strong_induction_on with
  | _ m ih =>
    intro hm n j
    have hN : m < 28714 := lt_of_lt_of_eq hm N_1
    by_cases h0 : m % 586 = 0
    · refine (congrFun (acc_first V c ⟨m, hm⟩ h0) (ix2 n j)).trans ?_
      refine (step_apply V c ⟨m, hm⟩ (k1_pay1 (F := Ideal)) n j).trans ?_
      rw [pay1_apply, zero_add]
      show blockTerm (srcArr V c) (msgArr V c) (m / 586) n j (m % 586) = _
      rw [h0, Nat.zero_add, Finset.sum_range_one]
    · have hm1 : m - 1 < cfg1.N := Nat.lt_of_le_of_lt (Nat.sub_le _ _) hm
      refine (congrFun (acc_next V c ⟨m, hm⟩ h0) (ix2 n j)).trans ?_
      refine (step_apply V c ⟨m, hm⟩ (Node.outsAt V c (m - 1) hm1).2 n j).trans ?_
      show ((Node.outsAt V c (m - 1) hm1).2 : S1024x128.Idx → EReal) (ix2 n j) + blockTerm (srcArr V c) (msgArr V c) (m / 586) n j (m % 586) = _
      rw [ih (m - 1) (by omega) hm1 n j, show (m - 1) % 586 + 1 = m % 586 from by omega,
        show (m - 1) / 586 = m / 586 from by omega, Finset.sum_range_succ]

end Cert.KernelIdeal.NodeValue

end
-- ==== Proof.NodeArray.lean ====
import proofs.«410833_j1056561954999_1_alg».proof.Proof.KI_NodeFrame
import proofs.«410833_j1056561954999_1_alg».proof.Proof.NodePayload
import proofs.«410833_j1056561954999_1_alg».proof.Proof.PaddedSpec
import proofs.«410833_j1056561954999_1_alg».proof.Proof.NodeAcc
import Idealize.ShloMosaic.Lib.Pipeline.Value

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev nblk (c : Dev nD) (t : Fin cfg1.N) : Vec Ideal S1024x128 .f32 := Node.iblk V c 2 t

abbrev wblk (c : Dev nD) (t : Fin cfg1.N) : Vec Ideal S256x128 .f32 := Node.iblk V c 3 t
abbrev c1blk (c : Dev nD) (t : Fin cfg1.N) : Vec Ideal S128 .f32 := Node.iblk V c 4 t
abbrev a2blk (c : Dev nD) (t : Fin cfg1.N) : Vec Ideal S128x128 .f32 := Node.iblk V c 5 t
abbrev c2blk (c : Dev nD) (t : Fin cfg1.N) : Vec Ideal S128 .f32 := Node.iblk V c 6 t

abbrev nodeArr (c : Dev nD) : S50176x128.Idx → EReal := V c main_v8
abbrev wArr (c : Dev nD) : S256x128.Idx → EReal := V c main_arg6
abbrev c1Arr (c : Dev nD) : S128.Idx → EReal := V c main_arg7
abbrev a2Arr (c : Dev nD) : S128x128.Idx → EReal := V c main_arg8
abbrev c2Arr (c : Dev nD) : S128.Idx → EReal := V c main_arg9

abbrev target (c : Dev nD) : S50176x128.Idx → EReal :=
  Cert.PaddedSpec.outArray (srcArr V c) (msgArr V c) (nodeArr V c) (wArr V c) (c1Arr V c) (a2Arr V c) (c2Arr V c)

theorem target_apply (c : Dev nD) (N : Fin 50176) (j : Fin 128) :
    target V c (ix2 N j)
      = (∑ k : Fin 128,
          max (((∑ k' : Fin 128, nodeArr V c (ix2 N k') * wArr V c (ix2 (⟨k'.val, by omega⟩ : Fin 256) k))
              + (∑ k' : Fin 128, Cert.PaddedSpec.aggPad (srcArr V c) (msgArr V c) N k' * wArr V c (ix2 (⟨128 + k'.val, by omega⟩ : Fin 256) k)))
              + c1Arr V c (ix1 k)) 0
            * a2Arr V c (ix2 k j)) + c2Arr V c (ix1 j) := rfl

theorem out_last (c : Dev nD) (t : Fin cfg1.N) (h0 : ¬t.val % 586 = 0) (h1 : t.val % 586 = 585) :
    (Node.outsAt V c t.val t.isLt).1
      = k1_pay3 (F := Ideal) (nblk V c t) (k1_pay2 (F := Ideal) (grid1.coords t) (sblk V c t) (mblk V c t) (Node.outsAt V c (t.val - 1) (Nat.lt_of_le_of_lt (Nat.sub_le _ _) t.isLt)).2)
          (Node.rowsLo (wblk V c t)) (Node.rowsHi (wblk V c t)) (a2blk V c t) (c1blk V c t) (c2blk V c t) := by
  rw [Node.outsAt_Last V c t h0 h1]
  dsimp only
  exact Node.out_Last_eq (F := Ideal) c (grid1.coords t) (Node.callAt t) (fun h => h0 ((Node.hcondFirst t).mp h)) ((Node.hcondLast t).mpr h1) (Node.blocksAt V c t) (Node.outsAt V c (t.val - 1) (Nat.lt_of_le_of_lt (Nat.sub_le _ _) t.isLt)).2

theorem acc_last (c : Dev nD) (t : Fin cfg1.N) (h0 : ¬t.val % 586 = 0) (h1 : t.val % 586 = 585) (n : Fin 1024) (k' : Fin 128) :
    k1_pay2 (F := Ideal) (grid1.coords t) (sblk V c t) (mblk V c t) (Node.outsAt V c (t.val - 1) (Nat.lt_of_le_of_lt (Nat.sub_le _ _) t.isLt)).2 (ix2 n k')
      = Cert.PaddedSpec.aggPad (srcArr V c) (msgArr V c)
          (⟨1024 * (t.val / 586) + n.val, by have h : t.val < 28714 := lt_of_lt_of_eq t.isLt N_1; have := n.isLt; omega⟩ : Fin 50176) k' := by
  have h : t.val < 28714 := lt_of_lt_of_eq t.isLt N_1
  refine (congrFun (acc_next V c t h0) (ix2 n k')).symm.trans ?_
  refine (acc_eq V c t.val t.isLt n k').trans ?_
  rw [h1]
  exact blocks_sum (srcArr V c) (msgArr V c) (t.val / 586) (by omega) n k'

theorem out_apply (c : Dev nD) (t : Fin cfg1.N) (h1 : t.val % 586 = 585) (n : Fin 1024) (j : Fin 128) :
    ((Node.outsAt V c t.val t.isLt).1 : S1024x128.Idx → EReal) (ix2 n j)
      = target V c (ix2 (⟨1024 * (t.val / 586) + n.val, by have h : t.val < 28714 := lt_of_lt_of_eq t.isLt N_1; have := n.isLt; omega⟩ : Fin 50176) j) := by
  have h0 : ¬t.val % 586 = 0 := by omega
  refine (congrFun (out_last V c t h0 h1) (ix2 n j)).trans ?_
  refine (pay3_apply (nblk V c t) (k1_pay2 (F := Ideal) (grid1.coords t) (sblk V c t) (mblk V c t) (Node.outsAt V c (t.val - 1) (Nat.lt_of_le_of_lt (Nat.sub_le _ _) t.isLt)).2)
    (Node.rowsLo (wblk V c t)) (Node.rowsHi (wblk V c t)) (a2blk V c t) (c1blk V c t) (c2blk V c t) n j).trans ?_
  refine Eq.trans ?_ (target_apply V c _ j).symm
  have hw : wblk V c t = wArr V c := a_block V c t
  have hc1 : ∀ k : Fin 128, c1blk V c t (ix1 k) = c1Arr V c (ix1 k) := fun k => congrFun (c1_block V c t) (ix1 k)
  have ha2 : ∀ k : Fin 128, a2blk V c t (ix2 k j) = a2Arr V c (ix2 k j) := fun k => congrFun (a2_block V c t) (ix2 k j)
  have hc2 : c2blk V c t (ix1 j) = c2Arr V c (ix1 j) := congrFun (c2_block V c t) (ix1 j)
  have hX : ∀ k' : Fin 128, nblk V c t (ix2 n k')
      = nodeArr V c (ix2 (⟨1024 * (t.val / 586) + n.val, by have h : t.val < 28714 := lt_of_lt_of_eq t.isLt N_1; have := n.isLt; omega⟩ : Fin 50176) k') :=
    fun k' => node_block V c t n k'
  have hLo : ∀ k' k : Fin 128, Node.rowsLo (wblk V c t) (ix2 k' k) = wArr V c (ix2 (⟨k'.val, by omega⟩ : Fin 256) k) :=
    fun k' k => (Node.rowsLo_apply (wblk V c t) k' k).trans (congrFun hw _)
  have hHi : ∀ k' k : Fin 128, Node.rowsHi (wblk V c t) (ix2 k' k) = wArr V c (ix2 (⟨128 + k'.val, by omega⟩ : Fin 256) k) :=
    fun k' k => (Node.rowsHi_apply (wblk V c t) k' k).trans (congrFun hw _)
  refine congrArg₂ (fun x y : EReal => x + y) (Finset.sum_congr rfl fun k _ => ?_) hc2
  refine congrArg₂ (fun x y : EReal => x * y) (congrArg (fun x : EReal => max x 0) (congrArg₂ (fun x y : EReal => x + y)
    (congrArg₂ (fun x y : EReal => x + y) (Finset.sum_congr rfl fun k' _ => ?_) (Finset.sum_congr rfl fun k' _ => ?_)) (hc1 k))) (ha2 k)
  · exact congrArg₂ (fun x y : EReal => x * y) (hX k') (hLo k' k)
  · exact congrArg₂ (fun x y : EReal => x * y) (acc_last V c t h0 h1 n k') (hHi k' k)

theorem flushed_eq (c : Dev nD) (t : Fin cfg1.N) (hf : (cfg1.win 7).flush t = true) :
    (Node.dat V c).flushed 7 t = ((cfg1.win 7).blk t).view.read (Elt Ideal) (target V c) := by
  have h : t.val < 28714 := lt_of_lt_of_eq t.isLt N_1
  have h1 : t.val % 586 = 585 := (Node.flush_7_iff t).mp hf
  show (cfg1.win 7).cut (grid1.coords t) ((Node.dat V c).after 7 t) = _
  rw [Node.after_7]
  funext y
  have hy0 : (y 0).val < 1024 := (y 0).isLt
  have hy1 : (y 1).val < 128 := (y 1).isLt
  have e : ((cfg1.win 7).blk t).view.emb y
      = ix2 (⟨1024 * (t.val / 586) + (y 0).val, by omega⟩ : Fin 50176) (⟨(y 1).val, hy1⟩ : Fin 128) := by
    funext a
    apply Fin.ext
    match a with
    | ⟨0, _⟩ => show win1_7.index t 0 * 1024 + 1 * (y 0).val = 1024 * (t.val / 586) + (y 0).val; rw [Node.index_7]; show t.val / 586 * 1024 + 1 * (y 0).val = _; omega
    | ⟨1, _⟩ => show win1_7.index t 1 * 128 + 1 * (y 1).val = (y 1).val; rw [Node.index_7]; show 0 * 128 + 1 * (y 1).val = _; omega
  have eL : (cfg1.win 7).cut (grid1.coords t) (Node.outsAt V c t.val t.isLt).1 y
      = ((Node.outsAt V c t.val t.isLt).1 : S1024x128.Idx → EReal) (ix2 (⟨(y 0).val, hy0⟩ : Fin 1024) (⟨(y 1).val, hy1⟩ : Fin 128)) :=
    congrArg ((Node.outsAt V c t.val t.isLt).1 : S1024x128.Idx → EReal) (funext fun a => match a with | ⟨0, _⟩ => rfl | ⟨1, _⟩ => rfl)
  have eR : ((cfg1.win 7).blk t).view.read (Elt Ideal) (target V c) y
      = target V c (ix2 (⟨1024 * (t.val / 586) + (y 0).val, by omega⟩ : Fin 50176) (⟨(y 1).val, hy1⟩ : Fin 128)) := by
    rw [View.read_apply]
    show target V c (((cfg1.win 7).blk t).view.emb y) = _
    exact congrArg (target V c) e
  exact eL.trans ((out_apply V c t h1 ⟨(y 0).val, hy0⟩ ⟨(y 1).val, hy1⟩).trans eR.symm)

theorem mem_blk (t : Fin cfg1.N) (i : S50176x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v10).slice (win1_7.rect t)).set ↔ _
  rw [View.set_slice_whole, Rect.mem_set_unit]
  exact Iff.rfl

theorem cover (i : S50176x128.Idx) : ∃ t : Fin cfg1.N, (cfg1.win 7).flush t = true ∧ i ∈ ((cfg1.win 7).blk t).view.set := by
  have hi0 : (i 0).val < 50176 := (i 0).isLt
  have hi1 : (i 1).val < 128 := (i 1).isLt
  have ht : 586 * ((i 0).val / 1024) + 585 < cfg1.N := lt_of_lt_of_eq (by omega : _ < 28714) N_1.symm
  refine ⟨⟨586 * ((i 0).val / 1024) + 585, ht⟩, (Node.flush_7_iff _).mpr (by show (586 * ((i 0).val / 1024) + 585) % 586 = 585; omega), ?_⟩
  rw [mem_blk]
  intro a
  match a with
  | ⟨0, _⟩ =>
    show win1_7.index ⟨586 * ((i 0).val / 1024) + 585, ht⟩ 0 * 1024 ≤ (i 0).val ∧ (i 0).val < win1_7.index ⟨586 * ((i 0).val / 1024) + 585, ht⟩ 0 * 1024 + 1024
    rw [Node.index_7]
    show (586 * ((i 0).val / 1024) + 585) / 586 * 1024 ≤ (i 0).val ∧ (i 0).val < (586 * ((i 0).val / 1024) + 585) / 586 * 1024 + 1024
    omega
  | ⟨1, _⟩ =>
    show win1_7.index ⟨586 * ((i 0).val / 1024) + 585, ht⟩ 1 * 128 ≤ (i 1).val ∧ (i 1).val < win1_7.index ⟨586 * ((i 0).val / 1024) + 585, ht⟩ 1 * 128 + 128
    rw [Node.index_7]
    show 0 * 128 ≤ (i 1).val ∧ (i 1).val < 0 * 128 + 128
    omega

theorem node_array (c : Dev nD) :
    ((Node.dat V c).arrAt 7 cfg1.N : S50176x128.Idx → EReal)
      = Cert.PaddedSpec.outArray (V c main_v5) (V c main_v9) (V c main_v8) (V c main_arg6) (V c main_arg7) (V c main_arg8) (V c main_arg9) :=
  (Node.dat V c).arrAt_eq_of_cover 7 (target V c) (fun t hf => flushed_eq V c t hf) (fun i => cover i)

end Cert.KernelIdeal.NodeValue

end
-- ==== Proof.Spec.lean ====
import Idealize.ShloMosaic.PureOps.Ideal
import Idealize.ShloMosaic.Lib.ValueIdx

noncomputable section

namespace Cert.Spec

open Idealize.ShloMosaic Idealize.ShloMosaic.ValueIdx

variable (x : (⟨2, ![50000, 128]⟩ : Shape).Idx → EReal) (ei : (⟨2, ![2, 600000]⟩ : Shape).Idx → BitVec 32)
  (W₁ : (⟨2, ![128, 128]⟩ : Shape).Idx → EReal) (b₁ : (⟨1, ![128]⟩ : Shape).Idx → EReal)
  (W₂ : (⟨2, ![128, 128]⟩ : Shape).Idx → EReal) (b₂ : (⟨1, ![128]⟩ : Shape).Idx → EReal)
  (A : (⟨2, ![256, 128]⟩ : Shape).Idx → EReal) (c₁ : (⟨1, ![128]⟩ : Shape).Idx → EReal)
  (A₂ : (⟨2, ![128, 128]⟩ : Shape).Idx → EReal) (c₂ : (⟨1, ![128]⟩ : Shape).Idx → EReal)

def nodeRow (w : BitVec 32) (k : Fin 128) : EReal :=
  if hw : 0 ≤ w.toInt ∧ w.toInt < 50000 then x (ix2 (⟨w.toInt.toNat, by omega⟩ : Fin 50000) k) else 0

def src (e : Fin 600000) : BitVec 32 := ei (ix2 (0 : Fin 2) e)

def dst (e : Fin 600000) : BitVec 32 := ei (ix2 (1 : Fin 2) e)

def edgeHidden (e : Fin 600000) (j : Fin 128) : EReal :=
  max ((∑ k : Fin 128, (nodeRow x (src ei e) k - nodeRow x (dst ei e) k) * W₁ (ix2 k j)) + b₁ (ix1 j)) 0

def edgeMsg (e : Fin 600000) (j : Fin 128) : EReal :=
  (∑ k : Fin 128, edgeHidden x ei W₁ b₁ e k * W₂ (ix2 k j)) + b₂ (ix1 j)

def aggregated (n : Fin 50000) (j : Fin 128) : EReal :=
  ∑ e : Fin 600000, if (src ei e).toInt = (n.val : Int) then edgeMsg x ei W₁ b₁ W₂ b₂ e j else 0

def nodeHidden (n : Fin 50000) (j : Fin 128) : EReal :=
  max (((∑ k : Fin 128, x (ix2 n k) * A (ix2 (⟨k.val, by omega⟩ : Fin 256) j))
      + (∑ k : Fin 128, aggregated x ei W₁ b₁ W₂ b₂ n k * A (ix2 (⟨128 + k.val, by omega⟩ : Fin 256) j))) + c₁ (ix1 j)) 0

def out (n : Fin 50000) (j : Fin 128) : EReal :=
  (∑ k : Fin 128, nodeHidden x ei W₁ b₁ W₂ b₂ A c₁ n k * A₂ (ix2 k j)) + c₂ (ix1 j)

def result : (⟨2, ![50000, 128]⟩ : Shape).Idx → EReal :=
  fun i => out x ei W₁ b₁ W₂ b₂ A c₁ A₂ c₂ (i 0) (i 1)

end Cert.Spec

end
-- ==== Proof.Bridge.lean ====
import Mathlib.Algebra.BigOperators.Fin
import proofs.«410833_j1056561954999_1_alg».proof.Proof.Spec
import proofs.«410833_j1056561954999_1_alg».proof.Proof.PaddedSpec

noncomputable section

namespace Cert.Bridge

open Idealize.ShloMosaic Idealize.ShloMosaic.ValueIdx Cert.Spec Cert.PaddedSpec

theorem msgArray_apply (sp dp : (⟨2, ![1, 600064]⟩ : Shape).Idx → BitVec 32) (xp : (⟨2, ![50176, 128]⟩ : Shape).Idx → EReal)
    (W₁ : (⟨2, ![128, 128]⟩ : Shape).Idx → EReal) (b₁ : (⟨1, ![128]⟩ : Shape).Idx → EReal)
    (W₂ : (⟨2, ![128, 128]⟩ : Shape).Idx → EReal) (b₂ : (⟨1, ![128]⟩ : Shape).Idx → EReal)
    (E : Fin 600064) (j : Fin 128) :
    msgArray sp dp xp W₁ b₁ W₂ b₂ (ix2 E j)
      = (∑ k : Fin 128,
          max ((∑ k' : Fin 128, (padRow xp (sp (ix2 (0 : Fin 1) E)) k' - padRow xp (dp (ix2 (0 : Fin 1) E)) k') * W₁ (ix2 k' k)) + b₁ (ix1 k)) 0
            * W₂ (ix2 k j)) + b₂ (ix1 j) := rfl

theorem outArray_apply (sp : (⟨2, ![1, 600064]⟩ : Shape).Idx → BitVec 32) (M : (⟨2, ![600064, 128]⟩ : Shape).Idx → EReal)
    (xp : (⟨2, ![50176, 128]⟩ : Shape).Idx → EReal)
    (A : (⟨2, ![256, 128]⟩ : Shape).Idx → EReal) (c₁ : (⟨1, ![128]⟩ : Shape).Idx → EReal)
    (A₂ : (⟨2, ![128, 128]⟩ : Shape).Idx → EReal) (c₂ : (⟨1, ![128]⟩ : Shape).Idx → EReal)
    (m : Fin 50176) (j : Fin 128) :
    outArray sp M xp A c₁ A₂ c₂ (ix2 m j)
      = (∑ k : Fin 128,
          max (((∑ k' : Fin 128, xp (ix2 m k') * A (ix2 (⟨k'.val, by omega⟩ : Fin 256) k))
              + (∑ k' : Fin 128, aggPad sp M m k' * A (ix2 (⟨128 + k'.val, by omega⟩ : Fin 256) k))) + c₁ (ix1 k)) 0
            * A₂ (ix2 k j)) + c₂ (ix1 j) := rfl

theorem sum_slots (g : Fin 600064 → EReal) :
    ∑ E : Fin 600064, g E
      = (∑ e : Fin 600000, g ⟨e.val, by omega⟩) + ∑ r : Fin 64, g ⟨600000 + r.val, by omega⟩ :=
  Fin.sum_univ_add (M := EReal) (a := 600000) (b := 64) g

section
variable (x : (⟨2, ![50000, 128]⟩ : Shape).Idx → EReal) (ei : (⟨2, ![2, 600000]⟩ : Shape).Idx → BitVec 32)
  (W₁ : (⟨2, ![128, 128]⟩ : Shape).Idx → EReal) (b₁ : (⟨1, ![128]⟩ : Shape).Idx → EReal)
  (W₂ : (⟨2, ![128, 128]⟩ : Shape).Idx → EReal) (b₂ : (⟨1, ![128]⟩ : Shape).Idx → EReal)
  (sp dp : (⟨2, ![1, 600064]⟩ : Shape).Idx → BitVec 32) (xp : (⟨2, ![50176, 128]⟩ : Shape).Idx → EReal)

theorem toInt_pad : (50176#32 : BitVec 32).toInt = 50176 := by decide

theorem padRow_eq
    (hxp : ∀ (n : Fin 50176) (j : Fin 128), xp (ix2 n j) = if h : n.val < 50000 then x (ix2 ⟨n.val, h⟩ j) else 0)
    (w : BitVec 32) (k : Fin 128) : padRow xp w k = nodeRow x w k := by
  unfold padRow nodeRow
  by_cases h1 : 0 ≤ w.toInt ∧ w.toInt < 50000
  · have h2 : 0 ≤ w.toInt ∧ w.toInt < 50176 := ⟨h1.1, by omega⟩
    have h3 : w.toInt.toNat < 50000 := by omega
    rw [dif_pos h2, dif_pos h1, hxp, dif_pos h3]
  · rw [dif_neg h1]
    by_cases h2 : 0 ≤ w.toInt ∧ w.toInt < 50176
    · have h3 : ¬ w.toInt.toNat < 50000 := by omega
      rw [dif_pos h2, hxp, dif_neg h3]
    · rw [dif_neg h2]

theorem msg_eq
    (hsp : ∀ E : Fin 600064, sp (ix2 (0 : Fin 1) E) = if h : E.val < 600000 then ei (ix2 (0 : Fin 2) ⟨E.val, h⟩) else 50176#32)
    (hdp : ∀ E : Fin 600064, dp (ix2 (0 : Fin 1) E) = if h : E.val < 600000 then ei (ix2 (1 : Fin 2) ⟨E.val, h⟩) else 50176#32)
    (hxp : ∀ (n : Fin 50176) (j : Fin 128), xp (ix2 n j) = if h : n.val < 50000 then x (ix2 ⟨n.val, h⟩ j) else 0)
    (e : Fin 600000) (j : Fin 128) :
    msgArray sp dp xp W₁ b₁ W₂ b₂ (ix2 (⟨e.val, by omega⟩ : Fin 600064) j) = edgeMsg x ei W₁ b₁ W₂ b₂ e j := by
  have he : (⟨e.val, by omega⟩ : Fin 600064).val < 600000 := e.isLt
  have hs : sp (ix2 (0 : Fin 1) (⟨e.val, by omega⟩ : Fin 600064)) = src ei e := by
    rw [hsp, dif_pos he]; rfl
  have hd : dp (ix2 (0 : Fin 1) (⟨e.val, by omega⟩ : Fin 600064)) = dst ei e := by
    rw [hdp, dif_pos he]; rfl
  rw [msgArray_apply, hs, hd]
  simp only [padRow_eq x xp hxp]
  rfl

theorem agg_eq
    (hsp : ∀ E : Fin 600064, sp (ix2 (0 : Fin 1) E) = if h : E.val < 600000 then ei (ix2 (0 : Fin 2) ⟨E.val, h⟩) else 50176#32)
    (hdp : ∀ E : Fin 600064, dp (ix2 (0 : Fin 1) E) = if h : E.val < 600000 then ei (ix2 (1 : Fin 2) ⟨E.val, h⟩) else 50176#32)
    (hxp : ∀ (n : Fin 50176) (j : Fin 128), xp (ix2 n j) = if h : n.val < 50000 then x (ix2 ⟨n.val, h⟩ j) else 0)
    (n : Fin 50000) (j : Fin 128) :
    aggPad sp (msgArray sp dp xp W₁ b₁ W₂ b₂) (⟨n.val, by omega⟩ : Fin 50176) j = aggregated x ei W₁ b₁ W₂ b₂ n j := by
  unfold aggPad aggregated
  rw [sum_slots]
  have htail : (∑ r : Fin 64,
      if (sp (ix2 (0 : Fin 1) (⟨600000 + r.val, by omega⟩ : Fin 600064))).toInt = ((⟨n.val, by omega⟩ : Fin 50176).val : Int)
        then msgArray sp dp xp W₁ b₁ W₂ b₂ (ix2 (⟨600000 + r.val, by omega⟩ : Fin 600064) j) else 0) = 0 := by
    apply Finset.sum_eq_zero
    intro r _
    have hr : ¬ (⟨600000 + r.val, by omega⟩ : Fin 600064).val < 600000 := by
      show ¬ 600000 + r.val < 600000
      omega
    have hn : ¬ (50176 : Int) = ((⟨n.val, by omega⟩ : Fin 50176).val : Int) := by
      show ¬ (50176 : Int) = (n.val : Int)
      have := n.isLt
      omega
    rw [hsp, dif_neg hr, toInt_pad, if_neg hn]
  rw [htail, add_zero]
  apply Finset.sum_congr rfl
  intro e _
  have he : (⟨e.val, by omega⟩ : Fin 600064).val < 600000 := e.isLt
  have hs : sp (ix2 (0 : Fin 1) (⟨e.val, by omega⟩ : Fin 600064)) = src ei e := by
    rw [hsp, dif_pos he]; rfl
  rw [hs, msg_eq x ei W₁ b₁ W₂ b₂ sp dp xp hsp hdp hxp e j]

end

theorem out_eq
    (x : (⟨2, ![50000, 128]⟩ : Shape).Idx → EReal) (ei : (⟨2, ![2, 600000]⟩ : Shape).Idx → BitVec 32)
    (W₁ : (⟨2, ![128, 128]⟩ : Shape).Idx → EReal) (b₁ : (⟨1, ![128]⟩ : Shape).Idx → EReal)
    (W₂ : (⟨2, ![128, 128]⟩ : Shape).Idx → EReal) (b₂ : (⟨1, ![128]⟩ : Shape).Idx → EReal)
    (A : (⟨2, ![256, 128]⟩ : Shape).Idx → EReal) (c₁ : (⟨1, ![128]⟩ : Shape).Idx → EReal)
    (A₂ : (⟨2, ![128, 128]⟩ : Shape).Idx → EReal) (c₂ : (⟨1, ![128]⟩ : Shape).Idx → EReal)
    (sp dp : (⟨2, ![1, 600064]⟩ : Shape).Idx → BitVec 32) (xp : (⟨2, ![50176, 128]⟩ : Shape).Idx → EReal)
    (hsp : ∀ E : Fin 600064, sp (ix2 (0 : Fin 1) E) = if h : E.val < 600000 then ei (ix2 (0 : Fin 2) ⟨E.val, h⟩) else 50176#32)
    (hdp : ∀ E : Fin 600064, dp (ix2 (0 : Fin 1) E) = if h : E.val < 600000 then ei (ix2 (1 : Fin 2) ⟨E.val, h⟩) else 50176#32)
    (hxp : ∀ (n : Fin 50176) (j : Fin 128), xp (ix2 n j) = if h : n.val < 50000 then x (ix2 ⟨n.val, h⟩ j) else 0)
    (n : Fin 50000) (j : Fin 128) :
    outArray sp (msgArray sp dp xp W₁ b₁ W₂ b₂) xp A c₁ A₂ c₂ (ix2 (⟨n.val, by omega⟩ : Fin 50176) j)
      = Spec.out x ei W₁ b₁ W₂ b₂ A c₁ A₂ c₂ n j := by
  have hn : (⟨n.val, by omega⟩ : Fin 50176).val < 50000 := n.isLt
  have hx : ∀ k' : Fin 128, xp (ix2 (⟨n.val, by omega⟩ : Fin 50176) k') = x (ix2 n k') := by
    intro k'
    rw [hxp, dif_pos hn]
  rw [outArray_apply]
  simp only [hx, agg_eq x ei W₁ b₁ W₂ b₂ sp dp xp hsp hdp hxp n]
  rfl

end Cert.Bridge

end
-- ==== Proof.KernelValue.lean ====
import proofs.«410833_j1056561954999_1_alg».proof.Proof.KI_Assemble
import proofs.«410833_j1056561954999_1_alg».proof.Proof.HostValue
import proofs.«410833_j1056561954999_1_alg».proof.Proof.EdgeArray
import proofs.«410833_j1056561954999_1_alg».proof.Proof.NodeArray
import proofs.«410833_j1056561954999_1_alg».proof.Proof.Bridge

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

theorem result_slice (c : Dev nD) (n : Fin 50000) (j : Fin 128) :
    (W9 m c (Proc.devRef .tc main_v11) : S50000x128.Idx → EReal) (ix2 n j)
      = (W8 m c (Proc.devRef .tc main_v10) : S50176x128.Idx → EReal) (ix2 (⟨n.val, by omega⟩ : Fin 50176) j) := by
  have e : (W9 m c (Proc.devRef .tc main_v11) : S50000x128.Idx → EReal)
      = extractStridedSlice S50000x128 ![0, 0] (W8 m c (Proc.devRef .tc main_v10) : S50176x128.Idx → EReal) slices_S50176x128_S50000x128_0_0 := by
    show StableHlo.after hostOps2 (W8 m c) (Proc.devRef .tc main_v11) = _
    simp only [hostOps2]
    after_results
  rw [e]
  show (W8 m c (Proc.devRef .tc main_v10) : S50176x128.Idx → EReal) _ = _
  congr 1
  funext a
  match a with
  | ⟨0, _⟩ => exact Fin.ext (Nat.zero_add _)
  | ⟨1, _⟩ => exact Fin.ext (Nat.zero_add _)

theorem V7_main_v5 (c : Dev nD) : V7 m c main_v5 = V6 m c main_v5 :=
  (W7_arr m c 0).trans (((Edge.dat (V6 m) c).arrAt_in 0 rfl _).trans (Edge.A_eq (V6 m) c 0))
theorem V7_main_v8 (c : Dev nD) : V7 m c main_v8 = V6 m c main_v8 :=
  (W7_arr m c 2).trans (((Edge.dat (V6 m) c).arrAt_in 2 rfl _).trans (Edge.A_eq (V6 m) c 2))

theorem V7_main_v9 (c : Dev nD) :
    (V7 m c main_v9 : S600064x128.Idx → EReal)
      = Cert.PaddedSpec.msgArray (V6 m c main_v5) (V6 m c main_v7) (V6 m c main_v8) (V6 m c main_arg2) (V6 m c main_arg3) (V6 m c main_arg4) (V6 m c main_arg5) :=
  (W7_arr m c 7).trans (EdgeValue.edge_array (V6 m) c)

theorem result_eq (c : Dev nD) :
    (W9 m c (Proc.devRef .tc main_v11) : S50000x128.Idx → EReal)
      = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨n, j, rfl⟩ : ∃ (n : Fin 50000) (j : Fin 128), i = ix2 n j := ⟨i 0, i 1, eq_ix2 i⟩
  rw [result_slice m c n j]
  rw [show (W8 m c (Proc.devRef .tc main_v10) : S50176x128.Idx → EReal) = (Node.dat (V7 m) c).arrAt 7 cfg1.N from W8_arr m c 7]
  rw [NodeValue.node_array (V7 m) c, V7_main_v5, V7_main_v8, V7_main_v9]
  rw [show V7 m c main_arg6 = m ((c : Thread nD τ).loc main_arg6) from W7_arg m c (by decide),
    show V7 m c main_arg7 = m ((c : Thread nD τ).loc main_arg7) from W7_arg m c (by decide),
    show V7 m c main_arg8 = m ((c : Thread nD τ).loc main_arg8) from W7_arg m c (by decide),
    show V7 m c main_arg9 = m ((c : Thread nD τ).loc main_arg9) from W7_arg m c (by decide),
    show V6 m c main_arg2 = m ((c : Thread nD τ).loc main_arg2) from W6_arg m c (by decide),
    show V6 m c main_arg3 = m ((c : Thread nD τ).loc main_arg3) from W6_arg m c (by decide),
    show V6 m c main_arg4 = m ((c : Thread nD τ).loc main_arg4) from W6_arg m c (by decide),
    show V6 m c main_arg5 = m ((c : Thread nD τ).loc main_arg5) from W6_arg m c (by decide)]
  exact Cert.Bridge.out_eq _ _ _ _ _ _ _ _ _ _ (V6 m c main_v5) (V6 m c main_v7) (V6 m c main_v8)
    (srcPad_apply m c) (dstPad_apply m c) (nodePad_apply m c) n j

end Cert.KernelIdeal.Whole

end
-- ==== Proof.LibGatherRow.lean ====
import Idealize.ShloMosaic.PureOps.ShapeOps
import Idealize.ShloMosaic.Lib.ValueIdx

namespace Idealize.ShloMosaic.GatherRow

open Idealize.ShloMosaic Idealize.ShloMosaic.ValueIdx

theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.LibScatterAddRows.lean ====
import Idealize.ShloMosaic.PureOps.Ideal
import Idealize.ShloMosaic.PureOps.Contract
import Idealize.ShloMosaic.Lib.ValueIdx

open scoped BigOperators

namespace Idealize.ShloMosaic.ScatterAddRows

open Idealize.ShloMosaic Idealize.ShloMosaic.ValueIdx

abbrev rowAddDims (N K C : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section
variable {N K C w : Nat} (wf : ScatterDims.WF ⟨2, ![N, C]⟩ ⟨2, ![K, 1]⟩ ⟨2, ![K, C]⟩ [1] [0] [0] 1)
  (idx : IVec ⟨2, ![K, 1]⟩ w) (e : Fin K) (b : Fin C)

theorem start_row : (rowAddDims N K C wf).start (ix2 e b) idx (0 : Fin 2) = (idx (ix2 e (0 : Fin 1))).toInt := by
  unfold ScatterDims.start
  rw [dif_pos (show (0 : Fin 2) ∈ (rowAddDims N K C wf).scatterDimsToOperandDims from List.mem_singleton.mpr rfl)]
  have hsi : (rowAddDims N K C wf).siIdx (ix2 e b) ⟨List.idxOf (0 : Fin 2) (rowAddDims N K C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem start_col : (rowAddDims N K C wf).start (ix2 e b) idx (1 : Fin 2) = 0 := by
  unfold ScatterDims.start
  rw [dif_neg (show ¬ (1 : Fin 2) ∈ (rowAddDims N K C wf).scatterDimsToOperandDims from (by decide : ¬ (1 : Fin 2) ∈ [(0 : Fin 2)]))]

theorem window_row : (rowAddDims N K C wf).window (ix2 e b) (0 : Fin 2) = 0 := by
  unfold ScatterDims.window
  have h01 : (0 : Fin 2) ∉ [(1 : Fin 2)] := by decide
  rw [dif_neg (show ¬ (0 : Fin 2) ∈ (rowAddDims N K C wf).sKept from h01)]

theorem window_col : (rowAddDims N K C wf).window (ix2 e b) (1 : Fin 2) = b.val := by
  unfold ScatterDims.window
  have h11 : (1 : Fin 2) ∈ [(1 : Fin 2)] := by decide
  rw [dif_pos (show (1 : Fin 2) ∈ (rowAddDims N K C wf).sKept from h11)]
  rfl

theorem resultIdx?_eq_some_iff (i : Fin N) (j : Fin C) :
    (rowAddDims N K C wf).resultIdx? (ix2 e b) idx = some (ix2 i j)
      ↔ (idx (ix2 e (0 : Fin 1))).toInt = (i.val : Int) ∧ b = j := by
  have hi : i.val < N := i.isLt
  have hb : b.val < C := b.isLt
  unfold ScatterDims.resultIdx?
  split
  · rename_i h
    have h0 := h 0
    rw [start_row, window_row] at h0
    rw [Option.some.injEq]
    constructor
    · intro heq
      have e0 := congrArg (fun f : (⟨2, ![N, C]⟩ : Shape).Idx => (f (0 : Fin 2)).val) heq
      have e1 := congrArg (fun f : (⟨2, ![N, C]⟩ : Shape).Idx => (f (1 : Fin 2)).val) heq
      simp only [start_row, start_col, window_row, window_col] at e0 e1
      refine ⟨?_, Fin.ext ?_⟩
      · have : ((idx (ix2 e (0 : Fin 1))).toInt + ((0 : Nat) : Int)).toNat = i.val := e0
        omega
      · have : ((0 : Int) + (b.val : Int)).toNat = j.val := e1
        omega
    · rintro ⟨hrow, rfl⟩
      funext a; refine Fin.ext ?_
      match a with
      | ⟨0, _⟩ =>
        show ((rowAddDims N K C wf).start (ix2 e b) idx (0 : Fin 2) + (rowAddDims N K C wf).window (ix2 e b) (0 : Fin 2)).toNat = i.val
        rw [start_row, window_row]; omega
      | ⟨1, _⟩ =>
        show ((rowAddDims N K C wf).start (ix2 e b) idx (1 : Fin 2) + (rowAddDims N K C wf).window (ix2 e b) (1 : Fin 2)).toNat = b.val
        rw [start_col, window_col]; omega
  · rename_i h
    constructor
    · intro heq; exact absurd heq (by simp)
    · rintro ⟨hrow, rfl⟩
      exfalso; apply h; intro a
      match a with
      | ⟨0, _⟩ =>
        show 0 ≤ (rowAddDims N K C wf).start (ix2 e b) idx (0 : Fin 2) + (rowAddDims N K C wf).window (ix2 e b) (0 : Fin 2)
          ∧ (rowAddDims N K C wf).start (ix2 e b) idx (0 : Fin 2) + (rowAddDims N K C wf).window (ix2 e b) (0 : Fin 2) < (N : Int)
        rw [start_row, window_row]; omega
      | ⟨1, _⟩ =>
        show 0 ≤ (rowAddDims N K C wf).start (ix2 e b) idx (1 : Fin 2) + (rowAddDims N K C wf).window (ix2 e b) (1 : Fin 2)
          ∧ (rowAddDims N K C wf).start (ix2 e b) idx (1 : Fin 2) + (rowAddDims N K C wf).window (ix2 e b) (1 : Fin 2) < (C : Int)
        rw [start_col, window_col]; omega

end

theorem hostScatterAdd_rowAddDims_apply {N K C w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd (rowAddDims N K C wf) x idx upd (ix2 i j)
      = x (ix2 i j) + ∑ e ∈ Finset.univ.filter (fun e : Fin K => (idx (ix2 e (0 : Fin 1))).toInt = (i.val : Int)), upd (ix2 e j) := by
  unfold Ideal.hostScatterAdd
  congr 1
  rw [Finset.sum_filter, sum_idx2, Finset.sum_filter]
  refine Finset.sum_congr rfl fun e _ => ?_
  by_cases ht : (idx (ix2 e (0 : Fin 1))).toInt = (i.val : Int)
  · rw [if_pos ht, Finset.sum_eq_single j]
    · rw [if_pos ((resultIdx?_eq_some_iff wf idx e j i j).mpr ⟨ht, rfl⟩)]
    · intro b _ hbj
      rw [if_neg (fun h => hbj ((resultIdx?_eq_some_iff wf idx e b i j).mp h).2)]
    · intro h; exact absurd (Finset.mem_univ j) h
  · rw [if_neg ht]
    refine Finset.sum_eq_zero fun b _ => ?_
    rw [if_neg (fun h => ht ((resultIdx?_eq_some_iff wf idx e b i j).mp h).1)]

theorem hostScatterAdd_rows_apply {N K C w : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd d x idx upd (ix2 i j)
      = x (ix2 i j) + ∑ e ∈ Finset.univ.filter (fun e : Fin K => (idx (ix2 e (0 : Fin 1))).toInt = (i.val : Int)), upd (ix2 e j) := by
  obtain ⟨uw, iw, sd, iv, wf⟩ := d
  simp only at hu hi hs hv
  subst hu hi hs hv
  exact hostScatterAdd_rowAddDims_apply wf x idx upd i j

end Idealize.ShloMosaic.ScatterAddRows
-- ==== Proof.LibMeanAggregate.lean ====
import Idealize.ShloMosaic.Lib.ValueIdx
import Idealize.ShloMosaic.Lib.Pipeline.Value
import Idealize.ShloMosaic.PureOps.Ideal.Laws

noncomputable section

open scoped BigOperators

namespace Idealize.ShloMosaic.MeanAggregate

open Idealize.ShloMosaic Idealize.ShloMosaic.ValueIdx

private theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
private theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
private theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
private theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

private theorem plain_contr_sum {φ₁ φ₂ : FTy} (M K N : Nat)
    (lhs : FVec Ideal ⟨2, ![M, K]⟩ φ₁) (rhs : FVec Ideal ⟨2, ![K, N]⟩ φ₂) (r : Fin M) (c : Fin N) :
    ∑ k : (DotDims.plain M K N).contr.Idx,
        lhs ((DotDims.plain M K N).lhsIdx (ix2 r c) k) * rhs ((DotDims.plain M K N).rhsIdx (ix2 r c) k)
      = ∑ k : Fin K, lhs (ix2 r k) * rhs (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

theorem plain_matmul_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply]
  exact plain_contr_sum M K N lhs rhs r c

theorem plain_dotGeneral_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply]
  exact plain_contr_sum M K N lhs rhs r c

theorem concat_cols_apply {α : Type} (M A B C : Nat) (hC : C = A + B) (x : (⟨2, ![M, A]⟩ : Shape).Idx → α)
    (y : (⟨2, ![M, B]⟩ : Shape).Idx → α)
    (h : Shape.Concatenates (([⟨⟨2, ![M, A]⟩, x⟩, ⟨⟨2, ![M, B]⟩, y⟩] : List ((s : Shape) × (s.Idx → α))).map (·.1)) ⟨2, ![M, C]⟩ 1)
    (r : Fin M) (j : Fin C) :
    concatenate ⟨2, ![M, C]⟩ 1 [⟨⟨2, ![M, A]⟩, x⟩, ⟨⟨2, ![M, B]⟩, y⟩] h (ix2 r j)
      = if hj : j.val < A then x (ix2 r ⟨j.val, hj⟩) else y (ix2 r ⟨j.val - A, by omega⟩) := by
  by_cases hj : j.val < A
  · rw [dif_pos hj]
    exact concatenate_apply_piece (t := ⟨2, ![M, C]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    exact concatenate_apply_piece (t := ⟨2, ![M, C]⟩) 1 _ h (ix2 r j) 1 (by simp) ⟨2, ![M, B]⟩ y rfl rfl A rfl
      (ix2 r ⟨j.val - A, by omega⟩)
      (fun b hb => by
        match b with
        | ⟨0, _⟩ => rfl
        | ⟨1, _⟩ => exact absurd rfl hb)
      (by show A + (j.val - A) = j.val; omega)

def layerAt (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) : EReal :=
  max (∑ j : Fin 256, (if hj : j.val < 128 then ∑ k : Fin S, D (ix2 r k) * src (ix2 k (⟨j.val, hj⟩ : Fin 128))
      else dst (ix2 r (⟨j.val - 128, by omega⟩ : Fin 128))) * w (ix2 j c)) 0

def layer (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) :
    (⟨2, ![M, 128]⟩ : Shape).Idx → EReal :=
  fun i => layerAt M S D src dst w (i 0) (i 1)

theorem layer_apply (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) :
    layer M S D src dst w (ix2 r c) = layerAt M S D src dst w r c := rfl

end Idealize.ShloMosaic.MeanAggregate

end
-- ==== Proof.RefValue.lean ====
import proofs.«410833_j1056561954999_1_alg».proof.Proof.Spec
import proofs.«410833_j1056561954999_1_alg».proof.Proof.Gen.ReferenceIdeal.Run
import proofs.«410833_j1056561954999_1_alg».proof.Proof.Gen.ReferenceIdeal.Read
import proofs.«410833_j1056561954999_1_alg».proof.Proof.LibGatherRow
import proofs.«410833_j1056561954999_1_alg».proof.Proof.LibScatterAddRows
import proofs.«410833_j1056561954999_1_alg».proof.Proof.LibMeanAggregate
import Mathlib.Algebra.BigOperators.Fin

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

theorem wrap_of_nonneg (w c : BitVec 32) (h : 0 ≤ w.toInt) :
    Scalar.select (IntOp.cmpi .slt w 0#32) (IntOp.addi w c) w = w := by
  have hc : IntOp.cmpi .slt w 0#32 = 0#1 :=
    eq_zero_of_ne_one fun h1 => by
      rw [IntOp.cmpi_slt, BitVec.toInt_zero] at h1
      omega
  rw [hc, select_zero]

section Words
variable (x1 : (⟨S2x600000, .i32⟩ : BufTy).Contents (Elt Ideal))

theorem v1_at (e : Fin 600000) : val_main_v1 (F := Ideal) x1 (ix1 e) = Cert.Spec.src x1 e := by
  rw [val_main_v1_apply, val_main_v0_apply]
  refine congrArg x1 (funext fun a => Fin.ext ?_)
  match a with
  | ⟨0, _⟩ => rfl
  | ⟨1, _⟩ => exact Nat.mod_eq_of_lt e.isLt

theorem v3_at (e : Fin 600000) : val_main_v3 (F := Ideal) x1 (ix1 e) = Cert.Spec.dst x1 e := by
  rw [val_main_v3_apply, val_main_v2_apply]
  refine congrArg x1 (funext fun a => Fin.ext ?_)
  match a with
  | ⟨0, _⟩ => rfl
  | ⟨1, _⟩ => exact Nat.mod_eq_of_lt e.isLt

theorem v9_at (e : Fin 600000) (h : 0 ≤ (Cert.Spec.src x1 e).toInt) :
    val_main_v9 (F := Ideal) x1 (ix2 e (0 : Fin 1)) = Cert.Spec.src x1 e := by
  have hi : idx_main_v9 (ix2 e (0 : Fin 1)) = ix1 e := funext fun a => Fin.ext (by match a with | ⟨0, _⟩ => rfl)
  rw [val_main_v9_apply, hi, val_main_v8_apply, val_main_v5_apply, val_main_v7_apply, val_main_v4_apply, val_main_c_apply,
    v1_at]
  exact wrap_of_nonneg _ _ h

theorem v16_at (e : Fin 600000) (h : 0 ≤ (Cert.Spec.dst x1 e).toInt) :
    val_main_v16 (F := Ideal) x1 (ix2 e (0 : Fin 1)) = Cert.Spec.dst x1 e := by
  have hi : idx_main_v16 (ix2 e (0 : Fin 1)) = ix1 e := funext fun a => Fin.ext (by match a with | ⟨0, _⟩ => rfl)
  rw [val_main_v16_apply, hi, val_main_v15_apply, val_main_v12_apply, val_main_v14_apply, val_main_v11_apply,
    val_main_c_1_apply, v3_at]
  exact wrap_of_nonneg _ _ h

theorem v29_at (e : Fin 600000) : val_main_v29 (F := Ideal) x1 (ix2 e (0 : Fin 1)) = Cert.Spec.src x1 e := by
  have hi : idx_main_v29 (ix2 e (0 : Fin 1)) = ix1 e := funext fun a => Fin.ext (by match a with | ⟨0, _⟩ => rfl)
  rw [val_main_v29_apply, hi, v1_at]

end Words

theorem gather_at (x0 : (⟨S50000x128, .f32⟩ : BufTy).Contents (Elt Ideal)) (idx : (⟨S600000x1, .i32⟩ : BufTy).Contents (Elt Ideal))
    (e : Fin 600000) (k : Fin 128) (w : BitVec 32) (hw : idx (ix2 e (0 : Fin 1)) = w)
    (h0 : 0 ≤ w.toInt) (hlt : w.toInt < 50000) :
    Host.gather gather_S50000x128_S600000x1_S600000x128_1_0_n_n_0_1_1128 x0 idx (ix2 e k) = Cert.Spec.nodeRow x0 w k := by
  subst hw
  unfold Cert.Spec.nodeRow
  rw [dif_pos ⟨h0, hlt⟩]
  exact GatherRow.gather_rowTake_apply_of_lt gather_S50000x128_S600000x1_S600000x128_1_0_n_n_0_1_1128
    rfl rfl rfl rfl rfl rfl rfl x0 idx e k h0 (by exact_mod_cast hlt)

section Rows
variable (x0 : (⟨S50000x128, .f32⟩ : BufTy).Contents (Elt Ideal)) (x1 : (⟨S2x600000, .i32⟩ : BufTy).Contents (Elt Ideal))

theorem v10_at (e : Fin 600000) (k : Fin 128)
    (h0 : 0 ≤ (Cert.Spec.src x1 e).toInt) (hlt : (Cert.Spec.src x1 e).toInt < 50000) :
    val_main_v10 (F := Ideal) x0 x1 (ix2 e k) = Cert.Spec.nodeRow x0 (Cert.Spec.src x1 e) k :=
  gather_at x0 (val_main_v9 (F := Ideal) x1) e k _ (v9_at x1 e h0) h0 hlt

theorem v17_at (e : Fin 600000) (k : Fin 128)
    (h0 : 0 ≤ (Cert.Spec.dst x1 e).toInt) (hlt : (Cert.Spec.dst x1 e).toInt < 50000) :
    val_main_v17 (F := Ideal) x0 x1 (ix2 e k) = Cert.Spec.nodeRow x0 (Cert.Spec.dst x1 e) k :=
  gather_at x0 (val_main_v16 (F := Ideal) x1) e k _ (v16_at x1 e h0) h0 hlt

end Rows

section Edge
variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

theorem v19_at (e : Fin 600000) (k : Fin 128) :
    val_main_v19 (F := Ideal) x0 x1 x2 (ix2 e k) = ∑ k' : Fin 128, val_main_v18 (F := Ideal) x0 x1 (ix2 e k') * x2 (ix2 k' k) := by
  rw [val_main_v19_apply]
  refine Finset.sum_congr rfl fun k' _ => ?_
  have hl : lidx_main_v19 (ix2 e k) k' = ix2 e k' :=
    funext fun a => Fin.ext (by match a with | ⟨0, _⟩ => rfl | ⟨1, _⟩ => rfl)
  have hr : ridx_main_v19 (ix2 e k) k' = ix2 k' k :=
    funext fun a => Fin.ext (by match a with | ⟨0, _⟩ => rfl | ⟨1, _⟩ => rfl)
  rw [hl, hr]

theorem v21_at (e : Fin 600000) (k : Fin 128) : val_main_v21 (F := Ideal) x3 (ix2 e k) = x3 (ix1 k) := by
  rw [val_main_v21_apply, val_main_v20_apply]
  exact congrArg x3 (funext fun a => Fin.ext (by match a with | ⟨0, _⟩ => rfl))

theorem relu0_at (i : S600000x128.Idx) : (val_main_call0_v0 (F := Ideal) i : EReal) = 0 := by
  rw [val_main_call0_v0_apply, val_main_call0_cst_apply, Ideal.ofBits_def, Ideal.ofBits_zero_f32]

theorem v24_at (e : Fin 600000) (j : Fin 128) :
    val_main_v24 (F := Ideal) x0 x1 x2 x3 x4 (ix2 e j)
      = ∑ k : Fin 128, val_main_v23 (F := Ideal) x0 x1 x2 x3 (ix2 e k) * x4 (ix2 k j) := by
  rw [val_main_v24_apply]
  refine Finset.sum_congr rfl fun k _ => ?_
  have hl : lidx_main_v24 (ix2 e j) k = ix2 e k :=
    funext fun a => Fin.ext (by match a with | ⟨0, _⟩ => rfl | ⟨1, _⟩ => rfl)
  have hr : ridx_main_v24 (ix2 e j) k = ix2 k j :=
    funext fun a => Fin.ext (by match a with | ⟨0, _⟩ => rfl | ⟨1, _⟩ => rfl)
  rw [hl, hr]

theorem v26_at (e : Fin 600000) (j : Fin 128) : val_main_v26 (F := Ideal) x5 (ix2 e j) = x5 (ix1 j) := by
  rw [val_main_v26_apply, val_main_v25_apply]
  exact congrArg x5 (funext fun a => Fin.ext (by match a with | ⟨0, _⟩ => rfl))

theorem hidden_at (e : Fin 600000) (k : Fin 128)
    (hs0 : 0 ≤ (Cert.Spec.src x1 e).toInt) (hs1 : (Cert.Spec.src x1 e).toInt < 50000)
    (hd0 : 0 ≤ (Cert.Spec.dst x1 e).toInt) (hd1 : (Cert.Spec.dst x1 e).toInt < 50000) :
    val_main_v23 (F := Ideal) x0 x1 x2 x3 (ix2 e k) = Cert.Spec.edgeHidden x0 x1 x2 x3 e k := by
  rw [val_main_v23_apply, relu0_at, val_main_v22_apply, v19_at, v21_at, Ideal.maximumf_def, Ideal.addf_def]
  unfold Cert.Spec.edgeHidden
  refine congrArg (fun t : EReal => max (t + x3 (ix1 k)) 0) (Finset.sum_congr rfl fun k' _ => ?_)
  rw [val_main_v18_apply, v10_at x0 x1 e k' hs0 hs1, v17_at x0 x1 e k' hd0 hd1, Ideal.subf_def]

theorem msg_at (e : Fin 600000) (j : Fin 128)
    (hs0 : 0 ≤ (Cert.Spec.src x1 e).toInt) (hs1 : (Cert.Spec.src x1 e).toInt < 50000)
    (hd0 : 0 ≤ (Cert.Spec.dst x1 e).toInt) (hd1 : (Cert.Spec.dst x1 e).toInt < 50000) :
    val_main_v27 (F := Ideal) x0 x1 x2 x3 x4 x5 (ix2 e j) = Cert.Spec.edgeMsg x0 x1 x2 x3 x4 x5 e j := by
  rw [val_main_v27_apply, v24_at, v26_at, Ideal.addf_def]
  unfold Cert.Spec.edgeMsg
  refine congrArg (fun t : EReal => t + x5 (ix1 j)) (Finset.sum_congr rfl fun k _ => ?_)
  rw [hidden_at x0 x1 x2 x3 e k hs0 hs1 hd0 hd1]

theorem v28_at (i : S50000x128.Idx) : (val_main_v28 (F := Ideal) i : EReal) = 0 := by
  rw [val_main_v28_apply, val_main_cst_apply, Ideal.ofBits_def, Ideal.ofBits_zero_f32]

theorem agg_at
    (hdst : ∀ e : Fin 600000, 0 ≤ (x1 (ix2 (1 : Fin 2) e)).toInt ∧ (x1 (ix2 (1 : Fin 2) e)).toInt < 50000)
    (n : Fin 50000) (j : Fin 128) :
    val_main_v30 (F := Ideal) x0 x1 x2 x3 x4 x5 (ix2 n j) = Cert.Spec.aggregated x0 x1 x2 x3 x4 x5 n j := by
  unfold val_main_v30
  show Ideal.hostScatterAdd scatter_S50000x128_S600000x1_S600000x128_1_0_0_1 (val_main_v28 (F := Ideal))
    (val_main_v29 (F := Ideal) x1) (val_main_v27 (F := Ideal) x0 x1 x2 x3 x4 x5) (ix2 n j) = _
  rw [ScatterAddRows.hostScatterAdd_rows_apply scatter_S50000x128_S600000x1_S600000x128_1_0_0_1 rfl rfl rfl rfl,
    v28_at, zero_add, Finset.sum_filter]
  unfold Cert.Spec.aggregated
  refine Finset.sum_congr rfl fun e _ => ?_
  rw [v29_at]
  have hn : n.val < 50000 := n.isLt
  by_cases h : (Cert.Spec.src x1 e).toInt = (n.val : Int)
  · rw [if_pos h, if_pos h]
    exact msg_at x0 x1 x2 x3 x4 x5 e j (by omega) (by omega) (hdst e).1 (hdst e).2
  · rw [if_neg h, if_neg h]

end Edge

theorem sum_split (f : Fin 256 → EReal) :
    ∑ k : Fin 256, f k
      = (∑ k : Fin 128, f (⟨k.val, by omega⟩ : Fin 256)) + ∑ k : Fin 128, f (⟨128 + k.val, by omega⟩ : Fin 256) :=
  Fin.sum_univ_add (a := 128) (b := 128) f

section Node
variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

theorem v31_at (n : Fin 50000) (j : Fin 256) :
    val_main_v31 (F := Ideal) x0 x1 x2 x3 x4 x5 (ix2 n j)
      = if hj : j.val < 128 then x0 (ix2 n ⟨j.val, hj⟩)
        else val_main_v30 (F := Ideal) x0 x1 x2 x3 x4 x5 (ix2 n ⟨j.val - 128, by omega⟩) := by
  unfold val_main_v31
  exact MeanAggregate.concat_cols_apply 50000 128 128 256 rfl x0 (val_main_v30 (F := Ideal) x0 x1 x2 x3 x4 x5)
    concatenates_S50000x128_S50000x128_S50000x256_d1 n j

theorem v31_left (n : Fin 50000) (k : Fin 128) :
    val_main_v31 (F := Ideal) x0 x1 x2 x3 x4 x5 (ix2 n (⟨k.val, by omega⟩ : Fin 256)) = x0 (ix2 n k) := by
  rw [v31_at, dif_pos (show ((⟨k.val, by omega⟩ : Fin 256) : Fin 256).val < 128 from k.isLt)]

theorem v31_right (n : Fin 50000) (k : Fin 128) :
    val_main_v31 (F := Ideal) x0 x1 x2 x3 x4 x5 (ix2 n (⟨128 + k.val, by omega⟩ : Fin 256))
      = val_main_v30 (F := Ideal) x0 x1 x2 x3 x4 x5 (ix2 n k) := by
  rw [v31_at, dif_neg (show ¬ ((⟨128 + k.val, by omega⟩ : Fin 256) : Fin 256).val < 128 from by
    show ¬ 128 + k.val < 128; omega)]
  exact congrArg (val_main_v30 (F := Ideal) x0 x1 x2 x3 x4 x5) (congrArg (ix2 n) (Fin.ext (Nat.add_sub_cancel_left 128 k.val)))

theorem v32_at (n : Fin 50000) (k : Fin 128) :
    val_main_v32 (F := Ideal) x0 x1 x2 x3 x4 x5 x6 (ix2 n k)
      = ∑ k' : Fin 256, val_main_v31 (F := Ideal) x0 x1 x2 x3 x4 x5 (ix2 n k') * x6 (ix2 k' k) := by
  rw [val_main_v32_apply]
  refine Finset.sum_congr rfl fun k' _ => ?_
  have hl : lidx_main_v32 (ix2 n k) k' = ix2 n k' :=
    funext fun a => Fin.ext (by match a with | ⟨0, _⟩ => rfl | ⟨1, _⟩ => rfl)
  have hr : ridx_main_v32 (ix2 n k) k' = ix2 k' k :=
    funext fun a => Fin.ext (by match a with | ⟨0, _⟩ => rfl | ⟨1, _⟩ => rfl)
  rw [hl, hr]

theorem v34_at (n : Fin 50000) (k : Fin 128) : val_main_v34 (F := Ideal) x7 (ix2 n k) = x7 (ix1 k) := by
  rw [val_main_v34_apply, val_main_v33_apply]
  exact congrArg x7 (funext fun a => Fin.ext (by match a with | ⟨0, _⟩ => rfl))

theorem relu1_at (i : S50000x128.Idx) : (val_main_call1_v0 (F := Ideal) i : EReal) = 0 := by
  rw [val_main_call1_v0_apply, val_main_call1_cst_apply, Ideal.ofBits_def, Ideal.ofBits_zero_f32]

theorem v37_at (n : Fin 50000) (j : Fin 128) :
    val_main_v37 (F := Ideal) x0 x1 x2 x3 x4 x5 x6 x7 x8 (ix2 n j)
      = ∑ k : Fin 128, val_main_v36 (F := Ideal) x0 x1 x2 x3 x4 x5 x6 x7 (ix2 n k) * x8 (ix2 k j) := by
  rw [val_main_v37_apply]
  refine Finset.sum_congr rfl fun k _ => ?_
  have hl : lidx_main_v37 (ix2 n j) k = ix2 n k :=
    funext fun a => Fin.ext (by match a with | ⟨0, _⟩ => rfl | ⟨1, _⟩ => rfl)
  have hr : ridx_main_v37 (ix2 n j) k = ix2 k j :=
    funext fun a => Fin.ext (by match a with | ⟨0, _⟩ => rfl | ⟨1, _⟩ => rfl)
  rw [hl, hr]

theorem v39_at (n : Fin 50000) (j : Fin 128) : val_main_v39 (F := Ideal) x9 (ix2 n j) = x9 (ix1 j) := by
  rw [val_main_v39_apply, val_main_v38_apply]
  exact congrArg x9 (funext fun a => Fin.ext (by match a with | ⟨0, _⟩ => rfl))

theorem nodeHidden_at
    (hdst : ∀ e : Fin 600000, 0 ≤ (x1 (ix2 (1 : Fin 2) e)).toInt ∧ (x1 (ix2 (1 : Fin 2) e)).toInt < 50000)
    (n : Fin 50000) (k : Fin 128) :
    val_main_v36 (F := Ideal) x0 x1 x2 x3 x4 x5 x6 x7 (ix2 n k) = Cert.Spec.nodeHidden x0 x1 x2 x3 x4 x5 x6 x7 n k := by
  rw [val_main_v36_apply, relu1_at, val_main_v35_apply, v32_at, v34_at, Ideal.maximumf_def, Ideal.addf_def, sum_split]
  unfold Cert.Spec.nodeHidden
  refine congrArg (fun t : EReal => max (t + x7 (ix1 k)) 0)
    (congrArg₂ (fun s t : EReal => s + t) (Finset.sum_congr rfl fun k' _ => ?_) (Finset.sum_congr rfl fun k' _ => ?_))
  · rw [v31_left]
  · rw [v31_right, agg_at x0 x1 x2 x3 x4 x5 hdst n k']

end Node

theorem ref_result
    (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (hdst : ∀ e : Fin 600000, 0 ≤ (x1 (ix2 (1 : Fin 2) e)).toInt ∧ (x1 (ix2 (1 : Fin 2) e)).toInt < 50000) :
    val_main_v40 (F := Ideal) x0 x1 x2 x3 x4 x5 x6 x7 x8 x9 = Cert.Spec.result x0 x1 x2 x3 x4 x5 x6 x7 x8 x9 := by
  funext i
  obtain ⟨n, j, rfl⟩ : ∃ (n : Fin 50000) (j : Fin 128), i = ix2 n j := ⟨i 0, i 1, eq_ix2 i⟩
  rw [val_main_v40_apply, v37_at, v39_at, Ideal.addf_def]
  show _ = Cert.Spec.out x0 x1 x2 x3 x4 x5 x6 x7 x8 x9 n j
  unfold Cert.Spec.out
  refine congrArg (fun t : EReal => t + x9 (ix1 j)) (Finset.sum_congr rfl fun k _ => ?_)
  rw [nodeHidden_at x0 x1 x2 x3 x4 x5 x6 x7 hdst n k]

end Cert.ReferenceIdeal.RefValue

end
-- ==== Proof.PreRange.lean ====
import proofs.«410833_j1056561954999_1_alg».proof.Proof.Gen.Pre_finite_inputs
import Idealize.ShloMosaic.PureOps.Ideal
import Idealize.ShloMosaic.Lib.ValueIdx
import Idealize.ShloMosaic.Lib.ValueLayout
import Idealize.ShloMosaic.Lib.ReduceAll
import Idealize.ShloMosaic.Lib.StableHlo.Predicate

noncomputable section

namespace Cert.PreRange

open Cert.Pre_finite_inputs
open Idealize.ShloMosaic Idealize.ShloMosaic.ValueIdx

variable [Cert.Pre_finite_inputs.Facts]

theorem scalar_idx_subsingleton : Subsingleton S_.Idx := ⟨fun a b => funext fun d => d.elim0⟩

def targets (a1 : IVec S2x600000 32) : IVec S600000 32 :=
  shapeCast S600000 (extractStridedSlice S1x600000 ![1, 0] a1 Facts.slices_S2x600000_S1x600000_1_0)
    Facts.shapeCasts_S1x600000_S600000

theorem targets_apply (a1 : IVec S2x600000 32) (e : Fin 600000) : targets a1 (ix1 e) = a1 (ix2 (1 : Fin 2) e) :=
  (shapeCast_1a_a_apply _ Facts.shapeCasts_S1x600000_S600000 e).trans
    (slice2_axis0_apply 1 a1 Facts.slices_S2x600000_S1x600000_1_0 (0 : Fin 1) e (1 : Fin 2) rfl)

theorem part3_read (p : IVec S_ 1) (v : IVec S600000 32) (h : fn_part3 (F := Ideal) p v ix0 = 1#1) :
    p ix0 = 1#1 ∧ ∀ i : S600000.Idx, (v i).toInt < 50000 := by
  haveI := scalar_idx_subsingleton
  dsimp only [fn_part3] at h
  obtain ⟨hp, hall⟩ := IntOp.andi_eq_one.1 h
  refine ⟨hp, fun i => ?_⟩

  have hi := Host.reduce_andi_all _ _ _ _ ix0 hall i
  have hlt : (v i).toInt < (50000#32 : BitVec 32).toInt := IntOp.cmpi_slt.1 hi
  rwa [show (50000#32 : BitVec 32).toInt = 50000 from by decide] at hlt

theorem part2_read (a1 : IVec S2x600000 32) (a8 : FVec Ideal S128x128 .f32) (a9 : FVec Ideal S128 .f32) (p : IVec S_ 1)
    (h : fn_part2 (F := Ideal) a1 a8 a9 p ix0 = 1#1) (i : S600000.Idx) :
    0 ≤ (targets a1 i).toInt ∧ (targets a1 i).toInt < 50000 := by
  haveI := scalar_idx_subsingleton
  dsimp only [fn_part2] at h
  obtain ⟨hq, hlt⟩ := part3_read _ _ h
  obtain ⟨-, hall⟩ := IntOp.andi_eq_one.1 hq
  have hi := Host.reduce_andi_all _ _ _ _ ix0 hall i
  have hge : (0#32 : BitVec 32).toInt ≤ (targets a1 i).toInt := IntOp.cmpi_sge.1 hi
  rw [show (0#32 : BitVec 32).toInt = 0 from by decide] at hge
  exact ⟨hge, hlt i⟩

theorem dst_range (a0 : FVec Ideal S50000x128 .f32) (a1 : IVec S2x600000 32) (a2 : FVec Ideal S128x128 .f32) (a3 : FVec Ideal S128 .f32)
    (a4 : FVec Ideal S128x128 .f32) (a5 : FVec Ideal S128 .f32) (a6 : FVec Ideal S256x128 .f32) (a7 : FVec Ideal S128 .f32)
    (a8 : FVec Ideal S128x128 .f32) (a9 : FVec Ideal S128 .f32)
    (h : Cert.Pre_finite_inputs.fn (F := Ideal) a0 a1 a2 a3 a4 a5 a6 a7 a8 a9 = fun _ => 1#1) (e : Fin 600000) :
    0 ≤ (a1 (ix2 (1 : Fin 2) e)).toInt ∧ (a1 (ix2 (1 : Fin 2) e)).toInt < 50000 := by

  have h0 : Cert.Pre_finite_inputs.fn (F := Ideal) a0 a1 a2 a3 a4 a5 a6 a7 a8 a9 ix0 = 1#1 := congrFun h ix0
  dsimp only [Cert.Pre_finite_inputs.fn, fn_part1] at h0
  have hr := part2_read a1 a8 a9 _ h0 (ix1 e)
  rwa [targets_apply] at hr

end Cert.PreRange

end
-- ==== Proof.lean ====
import proofs.«410833_j1056561954999_1_alg».proof.Defs
import proofs.«410833_j1056561954999_1_alg».proof.Proof.Gen.Kernel
import proofs.«410833_j1056561954999_1_alg».proof.Proof.Gen.KernelIdeal
import proofs.«410833_j1056561954999_1_alg».proof.Proof.Gen.ReferenceIdeal
import proofs.«410833_j1056561954999_1_alg».proof.Proof.Gen.Pre_finite_inputs
import proofs.«410833_j1056561954999_1_alg».proof.Proof.KB_Assemble
import proofs.«410833_j1056561954999_1_alg».proof.Proof.KI_Assemble
import proofs.«410833_j1056561954999_1_alg».proof.Proof.KernelValue
import proofs.«410833_j1056561954999_1_alg».proof.Proof.RefValue
import proofs.«410833_j1056561954999_1_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

section Claims

variable [hKernel : Cert.Kernel.Facts] [hKernelIdeal : Cert.KernelIdeal.Facts] [hReferenceIdeal : Cert.ReferenceIdeal.Facts] [hPre : Cert.Pre_finite_inputs.Facts]

theorem frame_k : Cert.frame_Kernel := fun m ρ _ => Cert.Kernel.Whole.frame (F := Bits) m ρ
theorem frame_ki : Cert.frame_KernelIdeal := fun m ρ _ => Cert.KernelIdeal.Whole.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    ?_, ?_⟩
  · exact (θ_run Cert.KernelIdeal.defs _ _).mono
      (fun r h c => ⟨(h c).1.trans (Cert.KernelIdeal.Whole.result_eq m c), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    have hd := fun e => Cert.PreRange.dst_range _ _ _ _ _ _ _ _ _ _ (hpre c) e
    rw [(h c).1, Cert.ReferenceIdeal.Read.val_main_v40_eq]
    obtain ⟨h0, h1, h2, h3, h4, h5, h6, h7, h8, h9⟩ := hagree c
    rw [h0, h1, h2, h3, h4, h5, h6, h7, h8, h9]
    exact Cert.ReferenceIdeal.RefValue.ref_result _ _ _ _ _ _ _ _ _ _ hd

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
